-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x1 : Shape := ⟨2, ![10000, 1]⟩
abbrev S160000 : Shape := ⟨1, ![160000]⟩
abbrev S3x512x512 : Shape := ⟨3, ![3, 512, 512]⟩
abbrev S3x512 : Shape := ⟨2, ![3, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x1 : S_.BroadcastsInDim S10000x1 (![] : Fin 0 → Fin S10000x1.rank)
  reducesTo_S10000x1_S_d0_1 : S10000x1.ReducesTo [0, 1] S_
  bcast_S_S160000 : S_.BroadcastsInDim S160000 (![] : Fin 0 → Fin S160000.rank)
  reducesTo_S160000_S_d0 : S160000.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part2 {F : FTy → Type} [FloatOps F] (main_arg6 : IVec S160000 32) (main_v31 : IVec S_ 1) (main_v32 : IVec S160000 32) : IVec S_ 1 :=
  let main_v33 : IVec S160000 1 := cmpi .sge main_arg6 main_v32
  let main_c_13 : IVec S_ 1 := constantI S_ 1 1#1
  let main_v34 : IVec S_ 1 := (fun x v => Host.reduce IntOp.andi x v reducesTo_S160000_S_d0 h_S_) main_v33 main_c_13
  let main_v35 : IVec S_ 1 := andi main_v31 main_v34
  main_v35

def fn_part1 {F : FTy → Type} [FloatOps F] (main_arg4 : FVec F S3x512 .f32) (main_arg5 : IVec S160000 32) (main_arg6 : IVec S160000 32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512 .f32 := Host.absf main_arg4
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_c_8 : IVec S_ 32 := constantI S_ 32 0#32
  let main_v24 : IVec S160000 32 := broadcastInDim S160000 ![] bcast_S_S160000 main_c_8
  let main_v25 : IVec S160000 1 := cmpi .sge main_arg5 main_v24
  let main_c_9 : IVec S_ 1 := constantI S_ 1 1#1
  let main_v26 : IVec S_ 1 := (fun x v => Host.reduce IntOp.andi x v reducesTo_S160000_S_d0 h_S_) main_v25 main_c_9
  let main_v27 : IVec S_ 1 := andi main_v23 main_v26
  let main_c_10 : IVec S_ 32 := constantI S_ 32 10000#32
  let main_v28 : IVec S160000 32 := broadcastInDim S160000 ![] bcast_S_S160000 main_c_10
  let main_v29 : IVec S160000 1 := cmpi .slt main_arg5 main_v28
  let main_c_11 : IVec S_ 1 := constantI S_ 1 1#1
  let main_v30 : IVec S_ 1 := (fun x v => Host.reduce IntOp.andi x v reducesTo_S160000_S_d0 h_S_) main_v29 main_c_11
  let main_v31 : IVec S_ 1 := andi main_v27 main_v30
  let main_c_12 : IVec S_ 32 := constantI S_ 32 0#32
  let main_v32 : IVec S160000 32 := broadcastInDim S160000 ![] bcast_S_S160000 main_c_12
  fn_part2 (F := F) main_arg6 main_v31 main_v32

def fn {F : FTy → Type} [FloatOps F] (main_arg0 : FVec F S10000x512 .f32) (main_arg1 : FVec F S10000x1 .f32) (main_arg2 : FVec F S160000 .f32) (main_arg3 : FVec F S3x512x512 .f32) (main_arg4 : FVec F S3x512 .f32) (main_arg5 : IVec S160000 32) (main_arg6 : IVec S160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x1 .f32 := Host.absf main_arg1
  let main_cst_0 : FVec F S_ .f32 := constant S_ .f32 0x7F800000#32
  let main_v5 : FVec F S10000x1 .f32 := broadcastInDim S10000x1 ![] bcast_S_S10000x1 main_cst_0
  let main_v6 : IVec S10000x1 1 := cmpf .olt main_v4 main_v5
  let main_c_1 : IVec S_ 1 := constantI S_ 1 1#1
  let main_v7 : IVec S_ 1 := (fun x v => Host.reduce IntOp.andi x v reducesTo_S10000x1_S_d0_1 h_S_) main_v6 main_c_1
  let main_v8 : IVec S_ 1 := andi main_v3 main_v7
  let main_v9 : FVec F S160000 .f32 := Host.absf main_arg2
  let main_cst_2 : FVec F S_ .f32 := constant S_ .f32 0x7F800000#32
  let main_v10 : FVec F S160000 .f32 := broadcastInDim S160000 ![] bcast_S_S160000 main_cst_2
  let main_v11 : IVec S160000 1 := cmpf .olt main_v9 main_v10
  let main_c_3 : IVec S_ 1 := constantI S_ 1 1#1
  let main_v12 : IVec S_ 1 := (fun x v => Host.reduce IntOp.andi x v reducesTo_S160000_S_d0 h_S_) main_v11 main_c_3
  let main_v13 : IVec S_ 1 := andi main_v8 main_v12
  let main_v14 : FVec F S3x512x512 .f32 := Host.absf main_arg3
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg4 main_arg5 main_arg6 main_v13 main_v16
-- ==== Kernel.lean ====
abbrev S10000x512 : Shape := ⟨2, ![10000, 512]⟩
abbrev S10000x1 : Shape := ⟨2, ![10000, 1]⟩
abbrev S160000 : Shape := ⟨1, ![160000]⟩
abbrev S3x512x512 : Shape := ⟨3, ![3, 512, 512]⟩
abbrev S3x512 : Shape := ⟨2, ![3, 512]⟩
abbrev S_ : Shape := ⟨0, ![]⟩
abbrev S10240x10240 : Shape := ⟨2, ![10240, 10240]⟩
abbrev S160000x1 : Shape := ⟨2, ![160000, 1]⟩
abbrev S160000x2 : Shape := ⟨2, ![160000, 2]⟩
abbrev S10240x512 : Shape := ⟨2, ![10240, 512]⟩
abbrev S10240x1 : Shape := ⟨2, ![10240, 1]⟩
abbrev S1024x1024 : Shape := ⟨2, ![1024, 1024]⟩
abbrev S1024x1 : Shape := ⟨2, ![1024, 1]⟩
abbrev S1024x512 : Shape := ⟨2, ![1024, 512]⟩
abbrev S1x10240x512 : Shape := ⟨3, ![1, 10240, 512]⟩
abbrev S3x10240x512 : Shape := ⟨3, ![3, 10240, 512]⟩
abbrev S3x1x512 : Shape := ⟨3, ![3, 1, 512]⟩
abbrev S10240x1536 : Shape := ⟨2, ![10240, 1536]⟩
abbrev S1x1024x512 : Shape := ⟨3, ![1, 1024, 512]⟩
abbrev S1x512x512 : Shape := ⟨3, ![1, 512, 512]⟩
abbrev S1x1x512 : Shape := ⟨3, ![1, 1, 512]⟩
abbrev S512x512 : Shape := ⟨2, ![512, 512]⟩
abbrev S1x512 : Shape := ⟨2, ![1, 512]⟩
abbrev S10000x1536 : Shape := ⟨2, ![10000, 1536]⟩

abbrev nBuf : Space → Nat
  | .hbm => 45
  | .vmem => 24
  | .smem => 0
  | _ => 0

abbrev bufTy : (tb : Table) → Fin (tcTables nBuf tb) → BufTy
  | .hbm, ⟨0, _⟩ => ⟨S10000x512, .f32⟩
  | .hbm, ⟨1, _⟩ => ⟨S10000x1, .f32⟩
  | .hbm, ⟨2, _⟩ => ⟨S160000, .f32⟩
  | .hbm, ⟨3, _⟩ => ⟨S3x512x512, .f32⟩
  | .hbm, ⟨4, _⟩ => ⟨S3x512, .f32⟩
  | .hbm, ⟨5, _⟩ => ⟨S160000, .i32⟩
  | .hbm, ⟨6, _⟩ => ⟨S160000, .i32⟩
  | .hbm, ⟨7, _⟩ => ⟨S_, .f32⟩
  | .hbm, ⟨8, _⟩ => ⟨S10240x10240, .f32⟩
  | .hbm, ⟨9, _⟩ => ⟨S_, .i32⟩
  | .hbm, ⟨10, _⟩ => ⟨S160000, .i32⟩
  | .hbm, ⟨11, _⟩ => ⟨S160000, .i1⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S160000, .i32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S160000x1, .i32⟩
  | .hbm, ⟨24, _⟩ => ⟨S160000x1, .i32⟩
  | .hbm, ⟨25, _⟩ => ⟨S160000x2, .i32⟩
  | .hbm, ⟨26, _⟩ => ⟨S10240x10240, .f32⟩
  | .hbm, ⟨27, _⟩ => ⟨S10240x10240, .bf16⟩
  | .hbm, ⟨28, _⟩ => ⟨S_, .i32⟩
  | .hbm, ⟨29, _⟩ => ⟨S_, .f32⟩
  | .hbm, ⟨30, _⟩ => ⟨S10240x512, .f32⟩
  | .hbm, ⟨31, _⟩ => ⟨S_, .i32⟩
  | .hbm, ⟨32, _⟩ => ⟨S_, .f32⟩
  | .hbm, ⟨33, _⟩ => ⟨S10240x1, .f32⟩
  | .hbm, ⟨34, _⟩ => ⟨S10240x512, .bf16⟩
  | .hbm, ⟨35, _⟩ => ⟨S10240x512, .f32⟩
  | .hbm, ⟨36, _⟩ => ⟨S10240x512, .bf16⟩
  | .hbm, ⟨37, _⟩ => ⟨S10240x512, .f32⟩
  | .hbm, ⟨38, _⟩ => ⟨S1x10240x512, .f32⟩
  | .hbm, ⟨39, _⟩ => ⟨S1x10240x512, .f32⟩
  | .hbm, ⟨40, _⟩ => ⟨S1x10240x512, .f32⟩
  | .hbm, ⟨41, _⟩ => ⟨S3x10240x512, .f32⟩
  | .hbm, ⟨42, _⟩ => ⟨S3x1x512, .f32⟩
  | .hbm, ⟨43, _⟩ => ⟨S10240x1536, .f32⟩
  | .hbm, ⟨44, _⟩ => ⟨S10000x1536, .f32⟩
  | .local _ .vmem, ⟨0, _⟩ => ⟨S1024x1024, .bf16⟩
  | .local _ .vmem, ⟨1, _⟩ => ⟨S1024x1024, .bf16⟩
  | .local _ .vmem, ⟨2, _⟩ => ⟨S10240x512, .bf16⟩
  | .local _ .vmem, ⟨3, _⟩ => ⟨S1024x1, .f32⟩
  | .local _ .vmem, ⟨4, _⟩ => ⟨S1024x1, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1024, .bf16⟩
  | .local _ .vmem, ⟨9, _⟩ => ⟨S1024x1024, .bf16⟩
  | .local _ .vmem, ⟨10, _⟩ => ⟨S10240x512, .bf16⟩
  | .local _ .vmem, ⟨11, _⟩ => ⟨S1024x1, .f32⟩
  | .local _ .vmem, ⟨12, _⟩ => ⟨S1024x1, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x512x512, .f32⟩
  | .local _ .vmem, ⟨19, _⟩ => ⟨S1x512x512, .f32⟩
  | .local _ .vmem, ⟨20, _⟩ => ⟨S1x1x512, .f32⟩
  | .local _ .vmem, ⟨21, _⟩ => ⟨S1x1x512, .f32⟩
  | .local _ .vmem, ⟨22, _⟩ => ⟨S1024x512, .f32⟩
  | .local _ .vmem, ⟨23, _⟩ => ⟨S1024x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_call0_v0 : Ref sig .tc := ⟨.hbm, 29, rfl⟩
abbrev main_v16 : Ref sig .tc := ⟨.hbm, 30, rfl⟩
abbrev main_c_4 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![10, 10], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![10, 10], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![10, 3], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1x1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S_S10240x10240 : S_.BroadcastsInDim S10240x10240 (![] : Fin 0 → Fin S10240x10240.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bitsLt_bf16_f32 : FTy.bits .bf16 < FTy.bits .f32
  pads_S10000x512_S10240x512_02400_000 : S10000x512.Pads (![0, 0] : Fin 2 → Nat) ![240, 0] ![0, 0] S10240x512
  h_S_ : 0 < S_.numel
  pads_S10000x1_S10240x1_02400_000 : S10000x1.Pads (![0, 0] : Fin 2 → Nat) ![240, 0] ![0, 0] S10240x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  bcast_S10240x512_S1x10240x512_1_2 : S10240x512.BroadcastsInDim S1x10240x512 (![1, 2] : Fin 2 → Fin S1x10240x512.rank)
  concatenates_S1x10240x512_S1x10240x512_S1x10240x512_S3x10240x512_d0 : Shape.Concatenates [S1x10240x512, S1x10240x512, S1x10240x512] S3x10240x512 0
  shapeCasts_S3x512_S3x1x512 : S3x512.ShapeCasts S3x1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  slices_S10240x1536_S10000x1536_0_0 : S10240x1536.Slices ![0, 0] S10000x1536
  scatter_S10240x10240_S160000x2_S160000_n_01_01_1_wf : ScatterDims.WF S10240x10240 S160000x2 S160000 [] [0, 1] [0, 1] 1
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S10240x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x10240.size a
  hwx0_0 : ∀ i : grid0.Coords, EltTy.bits .bf16 = 32 ∨ (Rect.block (s := S10240x10240) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x512.size a ≤ S10240x512.size a
  hwx0_1 : ∀ i : grid0.Coords, EltTy.bits .bf16 = 32 ∨ (Rect.block (s := S10240x512) S10240x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S10240x1.size a
  hwx0_2 : ∀ i : grid0.Coords, EltTy.bits .f32 = 32 ∨ (Rect.block (s := S10240x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S10240x512.size a
  hwx0_3 : ∀ i : grid0.Coords, EltTy.bits .f32 = 32 ∨ (Rect.block (s := S10240x512) S1024x512.size (cc0_transform_3 i) (hinb0_3 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x512.size a ≤ S10240x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .bf16 = 32 ∨ (Rect.block (s := S10240x10240) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S10240x1.size a
  hwx1_2 : ∀ i : grid1.Coords, EltTy.bits .f32 = 32 ∨ (Rect.block (s := S10240x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S10240x512.size a
  hwx1_3 : ∀ i : grid1.Coords, EltTy.bits .f32 = 32 ∨ (Rect.block (s := S10240x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S3x10240x512.size a
  hwx2_0 : ∀ i : grid2.Coords, EltTy.bits .f32 = 32 ∨ (Rect.block (s := S3x10240x512) S1x1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x512.size a ≤ S3x512x512.size a
  hwx2_1 : ∀ i : grid2.Coords, EltTy.bits .f32 = 32 ∨ (Rect.block (s := S3x512x512) S1x512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S3x1x512.size a
  hwx2_2 : ∀ i : grid2.Coords, EltTy.bits .f32 = 32 ∨ (Rect.block (s := S3x1x512) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S10240x1536.size a
  hwx2_3 : ∀ i : grid2.Coords, EltTy.bits .f32 = 32 ∨ (Rect.block (s := S10240x1536) S1024x512.size (cc2_transform_3 i) (hinb2_3 i)).WholeWords (EltTy.packing .f32)

variable [Facts₀]

def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10240x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v15) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v25) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1x512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x1 : Shape := ⟨2, ![10000, 1]⟩
abbrev S160000 : Shape := ⟨1, ![160000]⟩
abbrev S3x512x512 : Shape := ⟨3, ![3, 512, 512]⟩
abbrev S3x512 : Shape := ⟨2, ![3, 512]⟩
abbrev S_ : Shape := ⟨0, ![]⟩
abbrev S160000x1 : Shape := ⟨2, ![160000, 1]⟩
abbrev S160000x512 : Shape := ⟨2, ![160000, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S10000x1536 : Shape := ⟨2, ![10000, 1536]⟩

abbrev nBuf : Space → Nat
  | .hbm => 77
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x1, .f32⟩
  | .hbm, ⟨2, _⟩ => ⟨S160000, .f32⟩
  | .hbm, ⟨3, _⟩ => ⟨S3x512x512, .f32⟩
  | .hbm, ⟨4, _⟩ => ⟨S3x512, .f32⟩
  | .hbm, ⟨5, _⟩ => ⟨S160000, .i32⟩
  | .hbm, ⟨6, _⟩ => ⟨S160000, .i32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S160000x1, .f32⟩
  | .hbm, ⟨17, _⟩ => ⟨S160000x512, .f32⟩
  | .hbm, ⟨18, _⟩ => ⟨S160000x512, .f32⟩
  | .hbm, ⟨19, _⟩ => ⟨S_, .f32⟩
  | .hbm, ⟨20, _⟩ => ⟨S10000x512, .f32⟩
  | .hbm, ⟨21, _⟩ => ⟨S160000x1, .i32⟩
  | .hbm, ⟨22, _⟩ => ⟨S10000x512, .f32⟩
  | .hbm, ⟨23, _⟩ => ⟨S10000x512, .f32⟩
  | .hbm, ⟨24, _⟩ => ⟨S10000x512, .f32⟩
  | .hbm, ⟨25, _⟩ => ⟨S_, .i32⟩
  | .hbm, ⟨26, _⟩ => ⟨S160000, .i32⟩
  | .hbm, ⟨27, _⟩ => ⟨S160000, .i1⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S160000, .i32⟩
  | .hbm, ⟨32, _⟩ => ⟨S160000x1, .i32⟩
  | .hbm, ⟨33, _⟩ => ⟨S160000x512, .f32⟩
  | .hbm, ⟨34, _⟩ => ⟨S160000x1, .f32⟩
  | .hbm, ⟨35, _⟩ => ⟨S160000x512, .f32⟩
  | .hbm, ⟨36, _⟩ => ⟨S160000x512, .f32⟩
  | .hbm, ⟨37, _⟩ => ⟨S_, .f32⟩
  | .hbm, ⟨38, _⟩ => ⟨S10000x512, .f32⟩
  | .hbm, ⟨39, _⟩ => ⟨S160000x1, .i32⟩
  | .hbm, ⟨40, _⟩ => ⟨S10000x512, .f32⟩
  | .hbm, ⟨41, _⟩ => ⟨S10000x512, .f32⟩
  | .hbm, ⟨42, _⟩ => ⟨S10000x512, .f32⟩
  | .hbm, ⟨43, _⟩ => ⟨S1x512x512, .f32⟩
  | .hbm, ⟨44, _⟩ => ⟨S512x512, .f32⟩
  | .hbm, ⟨45, _⟩ => ⟨S10000x512, .f32⟩
  | .hbm, ⟨46, _⟩ => ⟨S1x512, .f32⟩
  | .hbm, ⟨47, _⟩ => ⟨S512, .f32⟩
  | .hbm, ⟨48, _⟩ => ⟨S1x512, .f32⟩
  | .hbm, ⟨49, _⟩ => ⟨S10000x512, .f32⟩
  | .hbm, ⟨50, _⟩ => ⟨S10000x512, .f32⟩
  | .hbm, ⟨51, _⟩ => ⟨S_, .f32⟩
  | .hbm, ⟨52, _⟩ => ⟨S10000x512, .f32⟩
  | .hbm, ⟨53, _⟩ => ⟨S10000x512, .f32⟩
  | .hbm, ⟨54, _⟩ => ⟨S1x512x512, .f32⟩
  | .hbm, ⟨55, _⟩ => ⟨S512x512, .f32⟩
  | .hbm, ⟨56, _⟩ => ⟨S10000x512, .f32⟩
  | .hbm, ⟨57, _⟩ => ⟨S1x512, .f32⟩
  | .hbm, ⟨58, _⟩ => ⟨S512, .f32⟩
  | .hbm, ⟨59, _⟩ => ⟨S1x512, .f32⟩
  | .hbm, ⟨60, _⟩ => ⟨S10000x512, .f32⟩
  | .hbm, ⟨61, _⟩ => ⟨S10000x512, .f32⟩
  | .hbm, ⟨62, _⟩ => ⟨S_, .f32⟩
  | .hbm, ⟨63, _⟩ => ⟨S10000x512, .f32⟩
  | .hbm, ⟨64, _⟩ => ⟨S10000x512, .f32⟩
  | .hbm, ⟨65, _⟩ => ⟨S1x512x512, .f32⟩
  | .hbm, ⟨66, _⟩ => ⟨S512x512, .f32⟩
  | .hbm, ⟨67, _⟩ => ⟨S10000x512, .f32⟩
  | .hbm, ⟨68, _⟩ => ⟨S1x512, .f32⟩
  | .hbm, ⟨69, _⟩ => ⟨S512, .f32⟩
  | .hbm, ⟨70, _⟩ => ⟨S1x512, .f32⟩
  | .hbm, ⟨71, _⟩ => ⟨S10000x512, .f32⟩
  | .hbm, ⟨72, _⟩ => ⟨S10000x512, .f32⟩
  | .hbm, ⟨73, _⟩ => ⟨S_, .f32⟩
  | .hbm, ⟨74, _⟩ => ⟨S10000x512, .f32⟩
  | .hbm, ⟨75, _⟩ => ⟨S10000x512, .f32⟩
  | .hbm, ⟨76, _⟩ => ⟨S10000x1536, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_cst : Ref sig .tc := ⟨.hbm, 51, rfl⟩
abbrev main_call0_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call1_cst : Ref sig .tc := ⟨.hbm, 62, rfl⟩
abbrev main_call1_v0 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call2_cst : Ref sig .tc := ⟨.hbm, 73, rfl⟩
abbrev main_call2_v0 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000x1_S10000x512_0_1 : S10000x1.BroadcastsInDim S10000x512 (![0, 1] : Fin 2 → Fin S10000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  concatenates_S10000x512_S10000x512_S10000x512_S10000x1536_d1 : Shape.Concatenates [S10000x512, S10000x512, S10000x512] S10000x1536 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.R0Defs.lean ====
/-
  The first adjacency product: the body branches on the reduction coordinate k = t % 10 of the point t, clearing the
  accumulator at k = 0 and writing the output block at k = 9.
-/
import proofs.«420774_j10771777979054_1_alg».proof.Proof.Gen.KernelIdeal.Launch
import proofs.«420774_j10771777979054_1_alg».proof.Proof.Gen.KernelIdeal.Skeleton
import proofs.«420774_j10771777979054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- An operand's block at point t, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-- k = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- k = 9. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10240x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)

abbrev scM0_0 : Memref sig .tc .vmem S1024x512 .f32 := Memref.whole cc0_scratch0

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.KernelIdeal.Fr

end
-- ==== Proof.R0RunA.lean ====
import proofs.«420774_j10771777979054_1_alg».proof.Proof.R0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body where k = 0: the accumulator is cleared, then one product added. -/
noncomputable def kernelRun0_A (c : Dev nD) (i : grid0.Coords) (arg2 : Memref sig .tc .vmem S1024x1024 .bf16) (harg2 : arg2.IsWhole) (arg3 : Memref sig .tc .vmem S10240x512 .bf16) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x1024 .bf16) (x1 : Vec F S10240x512 .bf16) (x2 : Vec F S1024x1 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨[], ?_, fun xi3 E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.R0RunB.lean ====
import proofs.«420774_j10771777979054_1_alg».proof.Proof.R0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body where 0 < k < 9: one product added to the accumulator. -/
noncomputable def kernelRun0_B (c : Dev nD) (i : grid0.Coords) (arg2 : Memref sig .tc .vmem S1024x1024 .bf16) (harg2 : arg2.IsWhole) (arg3 : Memref sig .tc .vmem S10240x512 .bf16) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x1024 .bf16) (x1 : Vec F S10240x512 .bf16) (x2 : Vec F S1024x1 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨[], ?_, fun xi3 E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.R0RunC.lean ====
import proofs.«420774_j10771777979054_1_alg».proof.Proof.R0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body where k = 9: one product added, and the renormalised accumulator stored. -/
noncomputable def kernelRun0_C (c : Dev nD) (i : grid0.Coords) (arg2 : Memref sig .tc .vmem S1024x1024 .bf16) (harg2 : arg2.IsWhole) (arg3 : Memref sig .tc .vmem S10240x512 .bf16) (harg3 : arg3.IsWhole) (arg4 : Memref sig .tc .vmem S1024x1 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x1024 .bf16) (x1 : Vec F S10240x512 .bf16) (x2 : Vec F S1024x1 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨?_, ?_, fun E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.Spmm.lean ====
import proofs.«420774_j10771777979054_1_alg».proof.Proof.R0RunA
import proofs.«420774_j10771777979054_1_alg».proof.Proof.R0RunB
import proofs.«420774_j10771777979054_1_alg».proof.Proof.R0RunC
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

theorem hz2 : (![0, 0] : Fin 2 → Nat) = fun _ => 0 := funext fun a => by fin_cases a <;> rfl

abbrev rowsR (i : grid0.Coords) : Rect S10240x512 := Rect.unit (s := S10240x512) (k0_off1 i) S1024x512.size (k0_off1_inb i)

/-- One reduction step: the accumulator `a` plus the matrix block `x0` times 1024 rows of the features `x1`. -/
abbrev step (i : grid0.Coords) (x0 : Vec F S1024x1024 .bf16) (x1 : Vec F S10240x512 .bf16) (a : Vec F S1024x512 .f32) :
    Vec F S1024x512 .f32 :=
  k0_pay2 (View.ld x1 (rowsR i)) a x0

section
variable (c : Dev nD) (i : grid0.Coords) (arg2 : Memref sig .tc .vmem S1024x1024 .bf16) (harg2 : arg2.IsWhole)
  (arg3 : Memref sig .tc .vmem S10240x512 .bf16) (harg3 : arg3.IsWhole) (arg4 : Memref sig .tc .vmem S1024x1 .f32) (harg4 : arg4.IsWhole)
  (arg5 : Memref sig .tc .vmem S1024x512 .f32) (harg5 : arg5.IsWhole) (arg6 : Memref sig .tc .vmem S1024x512 .f32) (harg6 : arg6.IsWhole)
  (x0 : Vec F S1024x1024 .bf16) (x1 : Vec F S10240x512 .bf16) (x2 : Vec F S1024x1 .f32) (xs0 : Vec F S1024x512 .f32)
  (v : View sig .tc .vmem S1024x512 .f32) (f : v.ty.Contents (Elt F))

/-- At reduction coordinate 0 the accumulator leaves as one step from zero. -/
theorem accA_eq (hc0 : cond0_0 i) (hc1 : ¬cond0_1 i) :
    v.read (Elt F) (v.writes (Elt F) f (kernelRun0_A c i arg2 harg2 arg3 harg3 arg4 harg4 arg5 harg5 arg6 harg6 hc0 hc1 x0 x1 x2).2.1) = step i x0 x1 k0_pay1 := by
  rw [View.read_writes_eq_canon _ _ _ (View.cover_of_tiledL _ S1024x512.size (by sl_kernel_rfl))]
  unfold kernelRun0_A
  dsimp only
  sl_unfold_words
  rw [View.canon_cons_unit_zero (S := S1024x512) hz2, View.readCov_unit_zero (S := S1024x512) _ hz2]
  simp only [View.readAt_eq_ld, harg2.read_unread, harg3.read_unread, View.ld_unit_zero (S := S1024x1024) hz2]
  rfl

/-- At coordinates 1 … 8 it leaves as one step from what it held. -/
theorem accB_eq (hc0 : ¬cond0_0 i) (hc1 : ¬cond0_1 i) :
    v.read (Elt F) (v.writes (Elt F) f (kernelRun0_B c i arg2 harg2 arg3 harg3 arg4 harg4 arg5 harg5 arg6 harg6 hc0 hc1 x0 x1 x2 xs0).2.1) = step i x0 x1 xs0 := by
  rw [View.read_writes_eq_canon _ _ _ (View.cover_of_tiledL _ S1024x512.size (by sl_kernel_rfl))]
  unfold kernelRun0_B
  dsimp only
  sl_unfold_words
  rw [View.canon_unit_zero hz2]
  simp only [View.readAt_eq_ld, harg2.read_unread, harg3.read_unread, harg6.read_unread, View.ld_unit_zero (S := S1024x512) hz2, View.ld_unit_zero (S := S1024x1024) hz2]
  rfl

/-- At coordinate 9 likewise, -/
theorem accC_eq (hc0 : ¬cond0_0 i) (hc1 : cond0_1 i) :
    v.read (Elt F) (v.writes (Elt F) f (kernelRun0_C c i arg2 harg2 arg3 harg3 arg4 harg4 arg5 harg5 arg6 harg6 hc0 hc1 x0 x1 x2 xs0).2.1) = step i x0 x1 xs0 := by
  rw [View.read_writes_eq_canon _ _ _ (View.cover_of_tiledL _ S1024x512.size (by sl_kernel_rfl))]
  unfold kernelRun0_C
  dsimp only
  sl_unfold_words
  rw [View.canon_unit_zero hz2]
  simp only [View.readAt_eq_ld, harg2.read_unread, harg3.read_unread, harg6.read_unread, View.ld_unit_zero (S := S1024x512) hz2, View.ld_unit_zero (S := S1024x1024) hz2]
  rfl

/-- and the output block is that accumulator times the renormalisation column. -/
theorem outC_eq (hc0 : ¬cond0_0 i) (hc1 : cond0_1 i) :
    v.read (Elt F) (v.writes (Elt F) f (kernelRun0_C c i arg2 harg2 arg3 harg3 arg4 harg4 arg5 harg5 arg6 harg6 hc0 hc1 x0 x1 x2 xs0).1) = k0_pay3 (step i x0 x1 xs0) x2 := by
  rw [View.read_writes_eq_canon _ _ _ (View.cover_of_tiledL _ S1024x512.size (by sl_kernel_rfl))]
  unfold kernelRun0_C
  dsimp only
  sl_unfold_words
  rw [View.canon_unit_zero hz2]
  simp only [View.readAt_eq_ld, View.readCov_unit_zero (S := S1024x512) _ hz2, harg2.read_unread, harg3.read_unread, harg4.read_unread, harg6.read_unread, View.ld_unit_zero (S := S1024x512) hz2, View.ld_unit_zero (S := S1024x1024) hz2, View.ld_unit_zero (S := S1024x1) hz2]
  rfl
end

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem zero_apply (p : Fin 1024) (q : Fin 512) : k0_pay1 (F := Ideal) (ix2 p q) = 0 := by
  unfold k0_pay1
  refine (congrFun (shapeCast_self _ _) (ix2 p q)).trans ?_
  exact Ideal.ofBits_zero_f32

theorem dot0_lhs_0 (j : S1024x512.Idx) (k : dot_S1024x1024_S1024x512_S1024x512_1_0_0_1_n_n.contr.Idx) :
    (dot_S1024x1024_S1024x512_S1024x512_1_0_0_1_n_n.lhsIdx j k 0).val = (j 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem dot0_lhs_1 (j : S1024x512.Idx) (k : dot_S1024x1024_S1024x512_S1024x512_1_0_0_1_n_n.contr.Idx) :
    (dot_S1024x1024_S1024x512_S1024x512_1_0_0_1_n_n.lhsIdx j k 1).val = (k ⟨0, by decide⟩).val :=
  dot_S1024x1024_S1024x512_S1024x512_1_0_0_1_n_n.lhsIdx_val_of_single rfl j k
theorem dot0_rhs_0 (j : S1024x512.Idx) (k : dot_S1024x1024_S1024x512_S1024x512_1_0_0_1_n_n.contr.Idx) :
    (dot_S1024x1024_S1024x512_S1024x512_1_0_0_1_n_n.rhsIdx j k 0).val = (k ⟨0, by decide⟩).val :=
  dot_S1024x1024_S1024x512_S1024x512_1_0_0_1_n_n.rhsIdx_val_of_single rfl j k
theorem dot0_rhs_1 (j : S1024x512.Idx) (k : dot_S1024x1024_S1024x512_S1024x512_1_0_0_1_n_n.contr.Idx) :
    (dot_S1024x1024_S1024x512_S1024x512_1_0_0_1_n_n.rhsIdx j k 1).val = (j 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

theorem matmul0_apply (A : S1024x1024.Idx → EReal) (X : S1024x512.Idx → EReal) (p : Fin 1024) (q : Fin 512) :
    matmul (F := Ideal) (φ₁ := .bf16) (φ₂ := .bf16) dot_S1024x1024_S1024x512_S1024x512_1_0_0_1_n_n none A X (constant S1024x512 .f32 0x00000000#32) (ix2 p q)
      = ∑ s : Fin 1024, A (ix2 p s) * X (ix2 s q) := by
  refine (Ideal.matmul_constant_zero_apply (φ₁ := .bf16) (φ₂ := .bf16) dot_S1024x1024_S1024x512_S1024x512_1_0_0_1_n_n none A X (ix2 p q)).trans ?_
  rw [← Equiv.sum_comp (contrEquiv1 dot_S1024x1024_S1024x512_S1024x512_1_0_0_1_n_n 1024 rfl rfl).symm]
  refine Finset.sum_congr rfl fun s _ => ?_
  have hk := contrEquiv1_symm_val dot_S1024x1024_S1024x512_S1024x512_1_0_0_1_n_n 1024 rfl rfl s
  have el : dot_S1024x1024_S1024x512_S1024x512_1_0_0_1_n_n.lhsIdx (ix2 p q) ((contrEquiv1 dot_S1024x1024_S1024x512_S1024x512_1_0_0_1_n_n 1024 rfl rfl).symm s) = ix2 p s := funext fun a => Fin.ext (by
    match a with
    | ⟨0, _⟩ => exact dot0_lhs_0 _ _
    | ⟨1, _⟩ => exact (dot0_lhs_1 _ _).trans hk)
  have er : dot_S1024x1024_S1024x512_S1024x512_1_0_0_1_n_n.rhsIdx (ix2 p q) ((contrEquiv1 dot_S1024x1024_S1024x512_S1024x512_1_0_0_1_n_n 1024 rfl rfl).symm s) = ix2 s q := funext fun a => Fin.ext (by
    match a with
    | ⟨0, _⟩ => exact (dot0_rhs_0 _ _).trans hk
    | ⟨1, _⟩ => exact dot0_rhs_1 _ _)
  rw [el, er]

theorem step_apply (v6 : S1024x512.Idx → EReal) (v8 : S1024x512.Idx → EReal) (v9 : S1024x1024.Idx → EReal) (p : Fin 1024) (q : Fin 512) :
    k0_pay2 (F := Ideal) v6 v8 v9 (ix2 p q) = v8 (ix2 p q) + ∑ s : Fin 1024, v9 (ix2 p s) * v6 (ix2 s q) := by
  unfold k0_pay2
  refine (congrFun (shapeCast_self _ _) (ix2 p q)).trans ?_
  refine (addf_apply _ _ (ix2 p q)).trans ?_
  refine congrArg (v8 (ix2 p q) + ·) ?_
  refine (congrArg (fun Y => matmul (F := Ideal) (φ₁ := .bf16) (φ₂ := .bf16) dot_S1024x1024_S1024x512_S1024x512_1_0_0_1_n_n none Y _ _ (ix2 p q)) (shapeCast_self v9 _)).trans ?_
  refine (congrArg (fun Y => matmul (F := Ideal) (φ₁ := .bf16) (φ₂ := .bf16) dot_S1024x1024_S1024x512_S1024x512_1_0_0_1_n_n none v9 Y _ (ix2 p q)) (shapeCast_self v6 _)).trans ?_
  exact matmul0_apply v9 v6 p q

theorem scaled_apply (v19 : S1024x512.Idx → EReal) (v20 : S1024x1.Idx → EReal) (p : Fin 1024) (q : Fin 512) :
    k0_pay3 (F := Ideal) v19 v20 (ix2 p q) = v19 (ix2 p q) * v20 (ix2 p (0 : Fin 1)) := by
  unfold k0_pay3
  refine (mulf_apply _ _ (ix2 p q)).trans ?_
  refine congrArg (v19 (ix2 p q) * ·) ?_
  refine (broadcastTo_a1_ab_apply _ _ p q).trans ?_
  exact congrFun (shapeCast_self v20 _) (ix2 p (0 : Fin 1))

/-- Row (or column) 1024·i + p of a 10240-long axis. -/
def rw10 (i : ℕ) (p : Fin 1024) : Fin 10240 := ⟨(1024 * i + p.val) % 10240, Nat.mod_lt _ (by decide)⟩

theorem sum_blocks10 {M : Type} [AddCommMonoid M] (f : Fin 10240 → M) :
    ∑ s : Fin 10240, f s = ∑ k ∈ Finset.range 10, ∑ s' : Fin 1024, f (rw10 k s') := by
  rw [Finset.sum_range, ← Equiv.sum_comp (finProdFinEquiv (m := 10) (n := 1024)) f, Fintype.sum_prod_type]
  refine Finset.sum_congr rfl fun k _ => Finset.sum_congr rfl fun s' _ => ?_
  refine congrArg f (Fin.ext ?_)
  show s'.val + 1024 * k.val = (1024 * k.val + s'.val) % 10240
  have := k.isLt; have := s'.isLt; omega

end Cert.KernelIdeal.Fr

end
-- ==== Proof.R0Data.lean ====
import proofs.«420774_j10771777979054_1_alg».proof.Proof.Spmm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after position `n`: one step from zero where the reduction coordinate is 0, else from the position before. -/
def accAt0 (c : Dev nD) : (n : ℕ) → n < cfg0.N → Vec F S1024x512 .f32
  | 0, hn => step (grid0.coords ⟨0, hn⟩) (iblk0 V c 0 ⟨0, hn⟩) (iblk0 V c 1 ⟨0, hn⟩) k0_pay1
  | n + 1, hn => step (grid0.coords ⟨n + 1, hn⟩) (iblk0 V c 0 ⟨n + 1, hn⟩) (iblk0 V c 1 ⟨n + 1, hn⟩)
      (if (n + 1) % 10 = 0 then k0_pay1 else accAt0 c n (Nat.lt_of_succ_lt hn))

theorem accAt0_first (c : Dev nD) (t : Fin cfg0.N) (h0 : t.val % 10 = 0) :
    accAt0 V c t.val t.isLt = step (grid0.coords t) (iblk0 V c 0 t) (iblk0 V c 1 t) k0_pay1 := by
  obtain ⟨n, hn⟩ := t
  cases n with
  | zero => rfl
  | succ n => exact congrArg (step _ _ _) (if_pos h0)

theorem accAt0_next (c : Dev nD) (t : Fin cfg0.N) (h0 : ¬t.val % 10 = 0) :
    accAt0 V c t.val t.isLt
      = step (grid0.coords t) (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact congrArg (step _ _ _) (if_neg h0)

def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)) ∗ others0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any position but the first the accumulator's contents can be forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 100 := N_0; omega)

/-- The body at any point: the reduction coordinate decides the case; each case leaves the accumulator one step on. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 10 = 0
  · have h1 : ¬t.val % 10 = 9 := by omega
    have hΦ : (dat0 V c).Φ t.castSucc
        ⊢ iprop(iprop((∃ d, owns (c : Thread nD τ) scM0_0 fullShare d) ∗ others0 c) ∗ (∃ r, prngReg c r)) := by
      rw [← PhiA0_eq c]
      by_cases hz : t.val = 0
      · rw [PhiS0_castSucc V c t, PhiS0_zero V c _ _ hz]
      · exact Phi_out0 V c t.castSucc hz
    rw [Dat.leavesExact_idle (dat0 V c) 3 t (idleAt0_3 t (fun h => h1 ((hcond0_1 t).mp h))) (noFlush0_3 t (fun h => h1 ((hcond0_1 t).mp h)))]
    rw [accAt0_first V c t h0]
    iintro ⟨HΦ, Ho, ⟨%d0, H0⟩, ⟨%d1, H1⟩, ⟨%d2, H2⟩, ⟨%d3, H3⟩⟩
    ihave HΦ' := hΦ $$ HΦ
    icases HΦ' with ⟨⟨HS0, Hoth⟩, Hg⟩
    iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact accA_eq ..
        iexact Hoth
      iexact Hg
    isplitl [Ho]; · iexact Ho
    isplitl [H0]; · iexact H0
    isplitl [H1]; · iexact H1
    isplitl [H2]; · iexact H2
    iexists _; iexact H3
  have hz : t.val ≠ 0 := fun e => h0 (by rw [e])
  rw [accAt0_next V c t h0, PhiS0_castSucc V c t, PhiS0_pos V c _ _ hz]
  by_cases h1 : t.val % 10 = 9
  · rw [show (dat0 V c).leavesExact 3 t = owns (c : Thread nD τ) (ms0_3 t) fullShare ((dat0 V c).after 3 t) from by
      unfold Dat.leavesExact; rw [liveAt0_3 t ((hcond0_1 t).mpr h1)], after0_3, accAt0_next V c t h0]
    iintro ⟨⟨⟨HS0, Hoth⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact accC_eq ..
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact outC_eq ..
  ·
    rw [Dat.leavesExact_idle (dat0 V c) 3 t (idleAt0_3 t (fun h => h1 ((hcond0_1 t).mp h))) (noFlush0_3 t (fun h => h1 ((hcond0_1 t).mp h)))]
    iintro ⟨⟨⟨HS0, Hoth⟩, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) _).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact accB_eq ..
        iexact Hoth
      iexact Hg
    isplitl [Ho]; · iexact Ho
    isplitl [H0]; · iexact H0
    isplitl [H1]; · iexact H1
    isplitl [H2]; · iexact H2
    iexists _; iexact H3

theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.R1Defs.lean ====
/-
  The second adjacency product: the body branches on the reduction coordinate k = t % 10 of the point t, clearing the
  accumulator at k = 0 and writing the output block at k = 9.
-/
import proofs.«420774_j10771777979054_1_alg».proof.Proof.Gen.KernelIdeal.Launch
import proofs.«420774_j10771777979054_1_alg».proof.Proof.Gen.KernelIdeal.Skeleton
import proofs.«420774_j10771777979054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- An operand's block at point t, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- k = 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- k = 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

abbrev scM1_0 : Memref sig .tc .vmem S1024x512 .f32 := Memref.whole cc1_scratch0

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Fr

end
-- ==== Proof.R1Data.lean ====
import proofs.«420774_j10771777979054_1_alg».proof.Proof.Spmm
import proofs.«420774_j10771777979054_1_alg».proof.Proof.R1Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after position `n`: one step from zero where the reduction coordinate is 0, else from the position before. -/
def accAt1 (c : Dev nD) : (n : ℕ) → n < cfg1.N → Vec F S1024x512 .f32
  | 0, hn => step (grid1.coords ⟨0, hn⟩) (iblk1 V c 0 ⟨0, hn⟩) (iblk1 V c 1 ⟨0, hn⟩) k0_pay1
  | n + 1, hn => step (grid1.coords ⟨n + 1, hn⟩) (iblk1 V c 0 ⟨n + 1, hn⟩) (iblk1 V c 1 ⟨n + 1, hn⟩)
      (if (n + 1) % 10 = 0 then k0_pay1 else accAt1 c n (Nat.lt_of_succ_lt hn))

theorem accAt1_first (c : Dev nD) (t : Fin cfg1.N) (h0 : t.val % 10 = 0) :
    accAt1 V c t.val t.isLt = step (grid1.coords t) (iblk1 V c 0 t) (iblk1 V c 1 t) k0_pay1 := by
  obtain ⟨n, hn⟩ := t
  cases n with
  | zero => rfl
  | succ n => exact congrArg (step _ _ _) (if_pos h0)

theorem accAt1_next (c : Dev nD) (t : Fin cfg1.N) (h0 : ¬t.val % 10 = 0) :
    accAt1 V c t.val t.isLt
      = step (grid1.coords t) (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact congrArg (step _ _ _) (if_neg h0)

def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k0_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k0_pay3 (accAt1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the accumulator's contents can be forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 100 := N_1; omega)

/-- The body at any point: the reduction coordinate decides the case; each case leaves the accumulator one step on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 10 = 0
  · have h1 : ¬t.val % 10 = 9 := by omega
    have hΦ : (dat1 V c).Φ t.castSucc
        ⊢ iprop(iprop((∃ d, owns (c : Thread nD τ) scM1_0 fullShare d) ∗ others1 c) ∗ (∃ r, prngReg c r)) := by
      rw [← PhiA1_eq c]
      by_cases hz : t.val = 0
      · rw [PhiS1_castSucc V c t, PhiS1_zero V c _ _ hz]
      · exact Phi_out1 V c t.castSucc hz
    rw [Dat.leavesExact_idle (dat1 V c) 3 t (idleAt1_3 t (fun h => h1 ((hcond1_1 t).mp h))) (noFlush1_3 t (fun h => h1 ((hcond1_1 t).mp h)))]
    rw [accAt1_first V c t h0]
    iintro ⟨HΦ, Ho, ⟨%d0, H0⟩, ⟨%d1, H1⟩, ⟨%d2, H2⟩, ⟨%d3, H3⟩⟩
    ihave HΦ' := hΦ $$ HΦ
    icases HΦ' with ⟨⟨HS0, Hoth⟩, Hg⟩
    iapply ((kernelRun0_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact accA_eq ..
        iexact Hoth
      iexact Hg
    isplitl [Ho]; · iexact Ho
    isplitl [H0]; · iexact H0
    isplitl [H1]; · iexact H1
    isplitl [H2]; · iexact H2
    iexists _; iexact H3
  have hz : t.val ≠ 0 := fun e => h0 (by rw [e])
  rw [accAt1_next V c t h0, PhiS1_castSucc V c t, PhiS1_pos V c _ _ hz]
  by_cases h1 : t.val % 10 = 9
  · rw [show (dat1 V c).leavesExact 3 t = owns (c : Thread nD τ) (ms1_3 t) fullShare ((dat1 V c).after 3 t) from by
      unfold Dat.leavesExact; rw [liveAt1_3 t ((hcond1_1 t).mpr h1)], after1_3, accAt1_next V c t h0]
    iintro ⟨⟨⟨HS0, Hoth⟩, Hg⟩, Ho, ⟨%d0, H0⟩, ⟨%d1, H1⟩, ⟨%d2, H2⟩, ⟨%d3, H3⟩⟩
    iapply ((kernelRun0_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact accC_eq ..
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact outC_eq ..
  ·
    rw [Dat.leavesExact_idle (dat1 V c) 3 t (idleAt1_3 t (fun h => h1 ((hcond1_1 t).mp h))) (noFlush1_3 t (fun h => h1 ((hcond1_1 t).mp h)))]
    iintro ⟨⟨⟨HS0, Hoth⟩, Hg⟩, Ho, ⟨%d0, H0⟩, ⟨%d1, H1⟩, ⟨%d2, H2⟩, ⟨%d3, H3⟩⟩
    iapply ((kernelRun0_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact accB_eq ..
        iexact Hoth
      iexact Hg
    isplitl [Ho]; · iexact Ho
    isplitl [H0]; · iexact H0
    isplitl [H1]; · iexact H1
    isplitl [H2]; · iexact H2
    iexists _; iexact H3

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.R2Data.lean ====
/-
  The dense-layer region: at point (i, h) the body stores max (x · W h + b h) 0 of the row block i of hop h whole;
  nothing is carried between points.
-/
import proofs.«420774_j10771777979054_1_alg».proof.Proof.Gen.KernelIdeal.Launch
import proofs.«420774_j10771777979054_1_alg».proof.Proof.Gen.KernelIdeal.Skeleton
import proofs.«420774_j10771777979054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

abbrev r2_0 : Rect S1x1024x512 := Rect.unit (s := S1x1024x512) ![0, 0, 0] S1x1024x512.size inb_S1x1024x512_S1x1024x512_0_0_0
abbrev r2_1 : Rect S1x512x512 := Rect.unit (s := S1x512x512) ![0, 0, 0] S1x512x512.size inb_S1x512x512_S1x512x512_0_0_0
abbrev r2_2 : Rect S1x1x512 := Rect.unit (s := S1x1x512) ![0, 0, 0] S1x1x512.size inb_S1x1x512_S1x1x512_0_0_0
abbrev r2_3 : Rect S1024x512 := Rect.unit (s := S1024x512) ![0, 0] S1024x512.size inb_S1024x512_S1024x512_0_0

/-- What one point stores, as a function of the three blocks it loads. -/
def out2_3 (x0 : Vec F S1x1024x512 .f32) (x1 : Vec F S1x512x512 .f32) (x2 : Vec F S1x1x512 .f32) : Vec F S1024x512 .f32 :=
  View.canon [⟨r2_3, k2_pay1 (View.ld x0 r2_0) (View.ld x1 r2_1) (View.ld x2 r2_2)⟩]

theorem cover2_3 (p0 : Vec F S1024x512 .f32) (y : S1024x512.Idx) :
    ∃ pc ∈ ([⟨r2_3, p0⟩] : List (View.Piece (Elt F) S1024x512 .f32)), y ∈ pc.1.set :=
  View.cover_of_tiled [⟨r2_3, p0⟩] S1024x512.size (by rfl) y

theorem sound_kernel2 (c : Dev nD) (E : Set ℕ) (i : grid2.Coords)
    (arg2 : Memref sig .tc .vmem S1x1024x512 .f32) (harg2 : arg2.IsWhole) (arg3 : Memref sig .tc .vmem S1x512x512 .f32) (harg3 : arg3.IsWhole)
    (arg4 : Memref sig .tc .vmem S1x1x512 .f32) (harg4 : arg4.IsWhole) (arg5 : Memref sig .tc .vmem S1024x512 .f32) (harg5 : arg5.IsWhole)
    (x0 : Vec F S1x1024x512 .f32) (x1 : Vec F S1x512x512 .f32) (x2 : Vec F S1x1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

section
variable (V : (c : Dev nD) → (b : Ref sig .tc) → Buf (Elt F) ((c : Thread nD τ).loc b))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

theorem hout2 (c : Dev nD) : (dat2 V c).Φ (Fin.last cfg2.N) ⊢ Pipeline.ΦA spec2 c := Idealize.SL.BI.Entails.refl _

end

end Cert.KernelIdeal.Fr

end
-- ==== Proof.KRun.lean ====
/-
  The run of the kernel's program as eleven segments, host stretches and the three regions, each entered from the
  valuation the one before leaves; every weakly fair execution ends with each buffer at the last valuation.
-/
import proofs.«420774_j10771777979054_1_alg».proof.Proof.R0Data
import proofs.«420774_j10771777979054_1_alg».proof.Proof.R1Data
import proofs.«420774_j10771777979054_1_alg».proof.Proof.R2Data
import proofs.«420774_j10771777979054_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

/-- After the first adjacency product: its arrays as it leaves them, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps3 (W10 m ρ c)

section
variable (c : Dev nD) (b : Ref sig .tc)

theorem W1_of (h : b ∉ hostOps0_W) : W1 m ρ c (Proc.devRef .tc b) = W0 m ρ c (Proc.devRef .tc b) :=
  StableHlo.after_of_writes_sub hostOps0 _ hostOps0_writes h
theorem W2_of (h : b ∉ hostOps0_1_W) : W2 m ρ c (Proc.devRef .tc b) = W1 m ρ c (Proc.devRef .tc b) :=
  StableHlo.after_of_writes_sub hostOps0_1 _ hostOps0_1_writes h
theorem W3_of (h : b ∉ hostOps0_2_W) : W3 m ρ c (Proc.devRef .tc b) = W2 m ρ c (Proc.devRef .tc b) :=
  StableHlo.after_of_writes_sub hostOps0_2 _ hostOps0_2_writes h
theorem W4_of (h : b ∉ hostOps0_3_W) : W4 m ρ c (Proc.devRef .tc b) = W3 m ρ c (Proc.devRef .tc b) :=
  StableHlo.after_of_writes_sub hostOps0_3 _ hostOps0_3_writes h
theorem W5_of (h : b ∉ hostOps0_4_W) : W5 m ρ c (Proc.devRef .tc b) = W4 m ρ c (Proc.devRef .tc b) :=
  StableHlo.after_of_writes_sub hostOps0_4 _ hostOps0_4_writes h
theorem W7_of (h : b ∉ hostOps1_W) : W7 m ρ c (Proc.devRef .tc b) = W6 m ρ c (Proc.devRef .tc b) :=
  StableHlo.after_of_writes_sub hostOps1 _ hostOps1_writes h
theorem W9_of (h : b ∉ hostOps2_W) : W9 m ρ c (Proc.devRef .tc b) = W8 m ρ c (Proc.devRef .tc b) :=
  StableHlo.after_of_writes_sub hostOps2 _ hostOps2_writes h
theorem W11_of (h : b ∉ hostOps3_W) : W11 m ρ c (Proc.devRef .tc b) = W10 m ρ c (Proc.devRef .tc b) :=
  StableHlo.after_of_writes_sub hostOps3 _ hostOps3_writes h

/-- What the host operations up to the second adjacency product write. -/
abbrev earlyW : List (Ref sig .tc) := hostOps1_W ++ hostOps0_4_W ++ hostOps0_3_W ++ hostOps0_2_W ++ hostOps0_1_W ++ hostOps0_W

/-- A buffer none of them writes and neither adjacency product touches still holds its launch contents there. -/
theorem W8_kept (hW : b ∉ earlyW) (h1 : ∀ w, Pipeline.arrRef spec1 w ≠ b) (h0 : ∀ w, Pipeline.arrRef spec0 w ≠ b) :
    W8 m ρ c (Proc.devRef .tc b) = m ((c : Thread nD τ).loc b) := by
  simp only [earlyW, List.mem_append, not_or] at hW
  obtain ⟨⟨⟨⟨⟨w1, w04⟩, w03⟩, w02⟩, w01⟩, w00⟩ := hW
  exact (W8_of_ne m ρ c b h1).trans <| (W7_of m ρ c b w1).trans <| (W6_of_ne m ρ c b h0).trans <|
    (W5_of m ρ c b w04).trans <| (W4_of m ρ c b w03).trans <| (W3_of m ρ c b w02).trans <| (W2_of m ρ c b w01).trans <|
    W1_of m ρ c b w00
end

abbrev adm : (p : Fin 3) → (pcfgs (F := F) p).Adm := fun p => (cfgs p).toPCfg_adm

/-- Each region's proof data at its entry valuation. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

set_option backward.isDefEq.respectTransparency.types false in
/-- A region as a segment, entered from every buffer at `Win` and left at `Wout`: its arrays are taken out of the
    buffers and put back at their exit contents, the generator register passes through the invariant, nothing is owed. -/
def regSeg (p : Fin 3) (launch : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (howed : ∀ c t, (pdats m ρ p c).owed t = 0) (hrec : ∀ c t, (pdats m ρ p c).recorded t = Set.univ)
    (hq : ∀ c w, (pdats m ρ p c).q w = fullShare)
    (hA : ∀ c w, (pdats m ρ p c).A w = Win c (Proc.devRef .tc (Pipeline.arrRef (pcfgs (F := F) p).spec w)))
    (hF : ∀ c w, (pdats m ρ p c).arrAt w (Pipeline.pin (pcfgs (F := F)) adm p).N = Wout c (Proc.devRef .tc (Pipeline.arrRef (pcfgs (F := F) p).spec w)))
    (hrest : ∀ c (b : Ref sig .tc), b ∉ Finset.univ.image (Pipeline.arrRef (pcfgs (F := F) p).spec) → Wout c (Proc.devRef .tc b) = Win c (Proc.devRef .tc b))
    (hin : ∀ c, Pipeline.ΦA (pcfgs (F := F) p).spec c ⊢ (pdats m ρ p c).Φ 0)
    (hout : ∀ c, (pdats m ρ p c).Φ (Fin.last _) ⊢ Pipeline.ΦA (pcfgs (F := F) p).spec c) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Win c (Proc.devRef .tc b))
  hentry c := by
    rw [Pipeline.ownSems0_none]
    have hsplit := Pipeline.arrays_of_unscopedBufs (p := p) (pcfgs (F := F)) adm (pdats m ρ) launch.win launch.arr_whole c
      ((pdats m ρ p c).share_full (hq c)) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro Hin
    ihave H' := h $$ Hin
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Win c (Proc.devRef .tc b)) (fun b => Wout c (Proc.devRef .tc b)) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev reg0 := regSeg m ρ 0 launch0 (W5 m ρ) (W6 m ρ) (fun c => (body_obligation0 (V5 m ρ) c).loose)
  (fun _ _ => rfl) (fun _ _ => rfl) (fun _ _ => rfl) (fun _ _ => rfl) (hF0 m ρ) (hrest0 m ρ) (hin0 (V5 m ρ)) (hout0 (V5 m ρ))
abbrev reg1 := regSeg m ρ 1 launch1 (W7 m ρ) (W8 m ρ) (fun c => (body_obligation1 (V7 m ρ) c).loose)
  (fun _ _ => rfl) (fun _ _ => rfl) (fun _ _ => rfl) (fun _ _ => rfl) (hF1 m ρ) (hrest1 m ρ) (hin1 (V7 m ρ)) (hout1 (V7 m ρ))
abbrev reg2 := regSeg m ρ 2 launch2 (W9 m ρ) (W10 m ρ) (fun c => (body_obligation2 (V9 m ρ) c).loose)
  (fun _ _ => rfl) (fun _ _ => rfl) (fun _ _ => rfl) (fun _ _ => rfl) (hF2 m ρ) (hrest2 m ρ) (hin2 (V9 m ρ)) (hout2 (V9 m ρ))

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)) ]

theorem main_run (c : Dev nD) : main (F := F) c = Pipeline.Seg.run (segs m ρ) := (main_chain c).trans (by chain_rfl)

set_option backward.isDefEq.respectTransparency.types false in
/-- Every weakly fair execution terminates with every buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Fr

end
-- ==== Proof.KArgs.lean ====
import proofs.«420774_j10771777979054_1_alg».proof.Proof.KRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host operation writes and no adjacency product touches ends as launched if the dense layer keeps it. -/
theorem W11_kept (c : Dev nD) (b : Ref sig .tc) (hW : b ∉ hostOps3_W ++ hostOps2_W ++ earlyW)
    (h1 : ∀ w, Pipeline.arrRef spec1 w ≠ b) (h0 : ∀ w, Pipeline.arrRef spec0 w ≠ b)
    (h2 : W10 m ρ c (Proc.devRef .tc b) = W9 m ρ c (Proc.devRef .tc b)) :
    W11 m ρ c (Proc.devRef .tc b) = m ((c : Thread nD τ).loc b) :=
  (W11_of m ρ c b fun h => hW (List.mem_append_left _ (List.mem_append_left _ h))).trans <| h2.trans <|
    (W9_of m ρ c b fun h => hW (List.mem_append_left _ (List.mem_append_right _ h))).trans <|
    W8_kept m ρ c b (fun h => hW (List.mem_append_right _ h)) h1 h0

/-- The run, read at the result and at the seven arguments. -/
theorem run_value : θ_run defs (onTc (τ := τ) (main (F := F))) ⟨m, fun _ => 0, ρ⟩ (fun r => ∀ c : Dev nD,
      r.2.mem ((c.tc : Thread nD τ).loc main_v28) = W11 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v28 (by decide)),
      (h c _ (mem_uc main_arg0 (by decide))).trans (W11_kept m ρ c main_arg0 (by decide) (by decide) (by decide) (W10_of_ne m ρ c _ (by decide))),
      (h c _ (mem_uc main_arg1 (by decide))).trans (W11_kept m ρ c main_arg1 (by decide) (by decide) (by decide) (W10_of_ne m ρ c _ (by decide))),
      (h c _ (mem_uc main_arg2 (by decide))).trans (W11_kept m ρ c main_arg2 (by decide) (by decide) (by decide) (W10_of_ne m ρ c _ (by decide))),
      (h c _ (mem_uc main_arg3 (by decide))).trans (W11_kept m ρ c main_arg3 (by decide) (by decide) (by decide) ((W10_arr m ρ c 1).trans (((dat2 (V9 m ρ) c).arrAt_in 1 rfl _).trans (A_eq2 (V9 m ρ) c 1)))),
      (h c _ (mem_uc main_arg4 (by decide))).trans (W11_kept m ρ c main_arg4 (by decide) (by decide) (by decide) (W10_of_ne m ρ c _ (by decide))),
      (h c _ (mem_uc main_arg5 (by decide))).trans (W11_kept m ρ c main_arg5 (by decide) (by decide) (by decide) (W10_of_ne m ρ c _ (by decide))),
      (h c _ (mem_uc main_arg6 (by decide))).trans (W11_kept m ρ c main_arg6 (by decide) (by decide) (by decide) (W10_of_ne m ρ c _ (by decide)))⟩) (run_all m ρ)

end Cert.KernelIdeal.Fr

end
-- ==== Proof.KTerms.lean ====
/-
  The host operations of the kernel's program as pure functions of the arrays they read.
-/
import proofs.«420774_j10771777979054_1_alg».proof.KernelIdeal
import proofs.«420774_j10771777979054_1_alg».proof.Proof.Gen.KernelIdeal

noncomputable section

namespace Cert.KernelIdeal.KT

open Cert.KernelIdeal Cert.KernelIdeal.Facts₀ Cert.KernelIdeal.Facts Idealize.ShloMosaic

variable {F : FTy → Type} [FloatOps F]

/-- A negative index word has 10240 added. -/
def tWrap (a : IVec S160000 32) : IVec S160000 32 :=
  select (cmpi .slt a (broadcastInDim S160000 ![] bcast_S_S160000 (constantI S_ 32 0#32)))
    (addi a (broadcastInDim S160000 ![] bcast_S_S160000 (constantI S_ 32 10240#32))) a

def tIdx (a5 a6 : IVec S160000 32) : IVec S160000x2 32 :=
  concatenate S160000x2 1 [⟨S160000x1, broadcastInDim S160000x1 ![0] bcast_S160000_S160000x1_0 (tWrap a6)⟩,
    ⟨S160000x1, broadcastInDim S160000x1 ![0] bcast_S160000_S160000x1_0 (tWrap a5)⟩] concatenates_S160000x1_S160000x1_S160000x2_d1

/-- The edge weights added into a zero matrix at (destination, source). -/
def tA (a2 : FVec F S160000 .f32) (a5 a6 : IVec S160000 32) : FVec F S10240x10240 .bf16 :=
  truncf .bf16 (Host.scatterAdd scatter_S10240x10240_S160000x2_S160000_n_01_01_1
    (broadcastInDim S10240x10240 ![] bcast_S_S10240x10240 (constant S_ .f32 0x00000000#32)) (tIdx a5 a6) a2) bitsLt_bf16_f32

/-- The features with 240 zero rows appended. -/
def tPadF (a0 : FVec F S10000x512 .f32) : FVec F S10240x512 .f32 :=
  pad S10240x512 ![0, 0] ![240, 0] ![0, 0] a0 (sitofp (F := F) .f32 (constantI S_ 32 0#32)) pads_S10000x512_S10240x512_02400_000 h_S_

def tD (a1 : FVec F S10000x1 .f32) : FVec F S10240x1 .f32 :=
  pad S10240x1 ![0, 0] ![240, 0] ![0, 0] a1 (sitofp (F := F) .f32 (constantI S_ 32 0#32)) pads_S10000x1_S10240x1_02400_000 h_S_

def tBf (x : FVec F S10240x512 .f32) : FVec F S10240x512 .bf16 := truncf .bf16 x bitsLt_bf16_f32

/-- The three hop inputs stacked along a new leading axis. -/
def tStack (x16 x19 x21 : FVec F S10240x512 .f32) : FVec F S3x10240x512 .f32 :=
  concatenate S3x10240x512 0 [⟨S1x10240x512, broadcastInDim S1x10240x512 ![1, 2] bcast_S10240x512_S1x10240x512_1_2 x16⟩,
    ⟨S1x10240x512, broadcastInDim S1x10240x512 ![1, 2] bcast_S10240x512_S1x10240x512_1_2 x19⟩,
    ⟨S1x10240x512, broadcastInDim S1x10240x512 ![1, 2] bcast_S10240x512_S1x10240x512_1_2 x21⟩]
    concatenates_S1x10240x512_S1x10240x512_S1x10240x512_S3x10240x512_d0

def tB3 (a4 : FVec F S3x512 .f32) : FVec F S3x1x512 .f32 := shapeCast S3x1x512 a4 shapeCasts_S3x512_S3x1x512

/-- The first 10000 rows. -/
def tOut (x27 : FVec F S10240x1536 .f32) : FVec F S10000x1536 .f32 :=
  extractStridedSlice S10000x1536 ![0, 0] x27 slices_S10240x1536_S10000x1536_0_0

end Cert.KernelIdeal.KT

end
-- ==== Proof.KVals.lean ====
/-
  What the arrays each region reads hold at its entry, and the result array at the end, as the host operations'
  terms of the launch memory and of the regions' results.
-/
import proofs.«420774_j10771777979054_1_alg».proof.Proof.KRun
import proofs.«420774_j10771777979054_1_alg».proof.Proof.KTerms

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KT

variable (m : (ℓ : Loc nD τ sig) → Buf (Elt F) ℓ) (ρ : Dev nD → PrngReg) (c : Dev nD)

theorem W1_arg (b : Ref sig .tc) (h : b ∉ hostOps0_W) : W1 m ρ c (Proc.devRef .tc b) = m ((c : Thread nD τ).loc b) :=
  (StableHlo.after_of_writes_sub hostOps0 _ hostOps0_writes h).trans rfl

theorem V5_v15 : V5 m ρ c main_v15 = tA (m ((c : Thread nD τ).loc main_arg2)) (m ((c : Thread nD τ).loc main_arg5)) (m ((c : Thread nD τ).loc main_arg6)) := by
  refine ((W5_of m ρ c main_v15 (by decide)).trans <|
      (W4_of m ρ c main_v15 (by decide)).trans <|
      (W3_of m ρ c main_v15 (by decide)).trans <|
      (W2_of m ρ c main_v15 (by decide))).trans ?_
  show StableHlo.after hostOps0 (W0 m ρ c) (Proc.devRef .tc main_v15) = _
  have h2 : W0 m ρ c (Proc.devRef .tc main_arg2) = m ((c : Thread nD τ).loc main_arg2) := rfl
  have h5 : W0 m ρ c (Proc.devRef .tc main_arg5) = m ((c : Thread nD τ).loc main_arg5) := rfl
  have h6 : W0 m ρ c (Proc.devRef .tc main_arg6) = m ((c : Thread nD τ).loc main_arg6) := rfl
  rw [← h2, ← h5, ← h6]
  generalize W0 m ρ c = W
  after_results_simp
  rfl

theorem W1_c3 : W1 m ρ c (Proc.devRef .tc main_c_3) = constantI S_ 32 0#32 := by
  show StableHlo.after hostOps0 (W0 m ρ c) (Proc.devRef .tc main_c_3) = _
  generalize W0 m ρ c = W
  after_results_simp

theorem W2_v16 : W2 m ρ c (Proc.devRef .tc main_v16) = tPadF (m ((c : Thread nD τ).loc main_arg0)) := by
  have hA := W1_arg m ρ c main_arg0 (by decide)
  have hC := W1_c3 m ρ c
  show StableHlo.after hostOps0_1 (W1 m ρ c) (Proc.devRef .tc main_v16) = _
  rw [← hA]
  generalize W1 m ρ c = W at hC ⊢
  after_results
  rw [hC]
  rfl

theorem V5_v16 : V5 m ρ c main_v16 = tPadF (m ((c : Thread nD τ).loc main_arg0)) :=
  ((W5_of m ρ c main_v16 (by decide)).trans <|
      (W4_of m ρ c main_v16 (by decide)).trans <|
      (W3_of m ρ c main_v16 (by decide))).trans (W2_v16 m ρ c)

theorem W3_c4 : W3 m ρ c (Proc.devRef .tc main_c_4) = constantI S_ 32 0#32 := by
  show StableHlo.after hostOps0_2 (W2 m ρ c) (Proc.devRef .tc main_c_4) = _
  generalize W2 m ρ c = W
  after_results

theorem W3_arg1 : W3 m ρ c (Proc.devRef .tc main_arg1) = m ((c : Thread nD τ).loc main_arg1) :=
  ((W3_of m ρ c main_arg1 (by decide)).trans <|
      (W2_of m ρ c main_arg1 (by decide)).trans <|
      (W1_of m ρ c main_arg1 (by decide))).trans rfl

theorem V5_v17 : V5 m ρ c main_v17 = tD (m ((c : Thread nD τ).loc main_arg1)) := by
  refine ((W5_of m ρ c main_v17 (by decide))).trans ?_
  have hA := W3_arg1 m ρ c
  have hC := W3_c4 m ρ c
  show StableHlo.after hostOps0_3 (W3 m ρ c) (Proc.devRef .tc main_v17) = _
  rw [← hA]
  generalize W3 m ρ c = W at hC ⊢
  after_results
  rw [hC]
  rfl

theorem V5_v18 : V5 m ρ c main_v18 = tBf (tPadF (m ((c : Thread nD τ).loc main_arg0))) := by
  have h16 : W4 m ρ c (Proc.devRef .tc main_v16) = tPadF (m ((c : Thread nD τ).loc main_arg0)) :=
    ((W4_of m ρ c main_v16 (by decide)).trans <|
      (W3_of m ρ c main_v16 (by decide))).trans (W2_v16 m ρ c)
  show StableHlo.after hostOps0_4 (W4 m ρ c) (Proc.devRef .tc main_v18) = _
  rw [← h16]
  generalize W4 m ρ c = W
  after_results
  rfl

theorem V7_v15 : V7 m ρ c main_v15 = V5 m ρ c main_v15 :=
  (W7_of m ρ c main_v15 (by decide)).trans <|
      (W6_arr m ρ c 0).trans (((dat0 (V5 m ρ) c).arrAt_in 0 rfl _).trans (A_eq0 (V5 m ρ) c 0))
theorem V7_v17 : V7 m ρ c main_v17 = V5 m ρ c main_v17 :=
  (W7_of m ρ c main_v17 (by decide)).trans <|
      (W6_arr m ρ c 2).trans (((dat0 (V5 m ρ) c).arrAt_in 2 rfl _).trans (A_eq0 (V5 m ρ) c 2))
theorem V7_v20 : V7 m ρ c main_v20 = tBf (V6 m ρ c main_v19) := by
  show StableHlo.after hostOps1 (W6 m ρ c) (Proc.devRef .tc main_v20) = tBf (W6 m ρ c (Proc.devRef .tc main_v19))
  generalize W6 m ρ c = W
  after_results
  rfl

theorem V9_v25 : V9 m ρ c main_v25 = tStack (V5 m ρ c main_v16) (V6 m ρ c main_v19) (V8 m ρ c main_v21) := by
  have h16 : W8 m ρ c (Proc.devRef .tc main_v16) = V5 m ρ c main_v16 :=
    (W8_of_ne m ρ c main_v16 (by decide)).trans <|
      (W7_of m ρ c main_v16 (by decide)).trans <|
      (W6_of_ne m ρ c main_v16 (by decide))
  have h19 : W8 m ρ c (Proc.devRef .tc main_v19) = V6 m ρ c main_v19 :=
    (W8_of_ne m ρ c main_v19 (by decide)).trans <|
      (W7_of m ρ c main_v19 (by decide))
  show StableHlo.after hostOps2 (W8 m ρ c) (Proc.devRef .tc main_v25)
    = tStack (V5 m ρ c main_v16) (V6 m ρ c main_v19) (W8 m ρ c (Proc.devRef .tc main_v21))
  rw [← h16, ← h19]
  generalize W8 m ρ c = W
  after_results
  rfl
theorem V9_v26 : V9 m ρ c main_v26 = tB3 (m ((c : Thread nD τ).loc main_arg4)) := by
  have h4 : W8 m ρ c (Proc.devRef .tc main_arg4) = m ((c : Thread nD τ).loc main_arg4) :=
    W8_kept m ρ c main_arg4 (by decide) (by decide) (by decide)
  show StableHlo.after hostOps2 (W8 m ρ c) (Proc.devRef .tc main_v26) = _
  rw [← h4]
  generalize W8 m ρ c = W
  after_results
  rfl
theorem V9_arg3 : V9 m ρ c main_arg3 = (m ((c : Thread nD τ).loc main_arg3)) :=
  (W9_of m ρ c main_arg3 (by decide)).trans (W8_kept m ρ c main_arg3 (by decide) (by decide) (by decide))

theorem W11_v28 : W11 m ρ c (Proc.devRef .tc main_v28) = tOut (V10 m ρ c main_v27) := by
  show StableHlo.after hostOps3 (W10 m ρ c) (Proc.devRef .tc main_v28) = tOut (W10 m ρ c (Proc.devRef .tc main_v27))
  generalize W10 m ρ c = W
  after_results
  rfl

end Cert.KernelIdeal.Fr

end
-- ==== Proof.R0Value.lean ====
import proofs.«420774_j10771777979054_1_alg».proof.Proof.R0Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

namespace Val0

section
variable {F : FTy → Type} [FloatOps F]
variable (V : (c : Dev nD) → (b : Ref sig .tc) → Buf (Elt F) ((c : Thread nD τ).loc b)) (c : Dev nD)

abbrev blkA (t : Fin cfg0.N) : Vec F S1024x1024 .bf16 := iblk0 V c 0 t
abbrev blkX (t : Fin cfg0.N) : Vec F S10240x512 .bf16 := iblk0 V c 1 t
abbrev blkD (t : Fin cfg0.N) : Vec F S1024x1 .f32 := iblk0 V c 2 t
abbrev arrA : Vec F S10240x10240 .bf16 := V c main_v15
abbrev arrX : Vec F S10240x512 .bf16 := V c main_v18
abbrev arrD : Vec F S10240x1 .f32 := V c main_v17

theorem idx0_0 : ∀ t : Fin cfg0.N, win0_0.index t 0 = t.val / 10 ∧ win0_0.index t 1 = t.val % 10 :=
  (by decide +kernel : ∀ t : Fin grid0.N, win0_0.index t 0 = t.val / 10 ∧ win0_0.index t 1 = t.val % 10)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = t.val / 10 ∧ win0_2.index t 1 = 0 :=
  (by decide +kernel : ∀ t : Fin grid0.N, win0_2.index t 0 = t.val / 10 ∧ win0_2.index t 1 = 0)
theorem idx0_3 : ∀ t : Fin cfg0.N, win0_3.index t 0 = t.val / 10 ∧ win0_3.index t 1 = 0 :=
  (by decide +kernel : ∀ t : Fin grid0.N, win0_3.index t 0 = t.val / 10 ∧ win0_3.index t 1 = 0)

theorem coord0_1 : ∀ t : Fin cfg0.N, (grid0.coords t 1).val = t.val % 10 :=
  (by decide +kernel : ∀ t : Fin grid0.N, (grid0.coords t 1).val = t.val % 10)

theorem blkA_apply (t : Fin cfg0.N) (p s : Fin 1024) (r : Fin 10240) (u : Fin 10240) (hr : r.val = 1024 * (t.val / 10) + p.val) (hu : u.val = 1024 * (t.val % 10) + s.val) :
    blkA V c t (ix2 p s) = arrA V c (ix2 r u) := by
  show iblk0 V c 0 t (ix2 p s) = _
  unfold iblk0
  rw [View.read_apply]
  show V c main_v15 _ = V c main_v15 _
  congr 1
  funext a
  apply Fin.ext
  match a with
  | ⟨0, _⟩ => show win0_0.index t 0 * 1024 + 1 * p.val = r.val; rw [(idx0_0 t).1]; omega
  | ⟨1, _⟩ => show win0_0.index t 1 * 1024 + 1 * s.val = u.val; rw [(idx0_0 t).2]; omega

theorem blkX_apply (t : Fin cfg0.N) (p : Fin 10240) (q : Fin 512) :
    blkX V c t (ix2 p q) = arrX V c (ix2 p q) := by
  show iblk0 V c 1 t (ix2 p q) = _
  unfold iblk0
  rw [View.read_apply]
  show V c main_v18 _ = V c main_v18 _
  congr 1
  funext a
  apply Fin.ext
  match a with
  | ⟨0, _⟩ => show win0_1.index t 0 * 10240 + 1 * p.val = p.val; rw [(idx0_1 t).1]; omega
  | ⟨1, _⟩ => show win0_1.index t 1 * 512 + 1 * q.val = q.val; rw [(idx0_1 t).2]; omega

theorem blkD_apply (t : Fin cfg0.N) (p : Fin 1024) (r : Fin 10240) (hr : r.val = 1024 * (t.val / 10) + p.val) :
    blkD V c t (ix2 p (0 : Fin 1)) = arrD V c (ix2 r (0 : Fin 1)) := by
  show iblk0 V c 2 t (ix2 p (0 : Fin 1)) = _
  unfold iblk0
  rw [View.read_apply]
  show V c main_v17 _ = V c main_v17 _
  congr 1
  funext a
  apply Fin.ext
  match a with
  | ⟨0, _⟩ => show win0_2.index t 0 * 1024 + 1 * p.val = r.val; rw [(idx0_2 t).1]; omega
  | ⟨1, _⟩ => show win0_2.index t 1 * 1 + 1 * (0 : Fin 1).val = (0 : Fin 1).val; rw [(idx0_2 t).2]; rfl

theorem ldX_apply (t : Fin cfg0.N) (X : Vec F S10240x512 .bf16) (s : Fin 1024) (q : Fin 512) (u : Fin 10240) (hu : u.val = 1024 * (t.val % 10) + s.val) :
    (View.ld X (rowsR (grid0.coords t)) : Vec F S1024x512 .bf16) (ix2 s q) = X (ix2 u q) := by
  show X _ = X _
  congr 1
  funext a
  apply Fin.ext
  match a with
  | ⟨0, _⟩ => show (k0_off1 (grid0.coords t)) 0 + 1 * s.val = u.val; rw [k0_off1_eq]; show 1024 * (grid0.coords t 1).val + 1 * s.val = u.val; rw [coord0_1 t]; omega
  | ⟨1, _⟩ => show (k0_off1 (grid0.coords t)) 1 + 1 * q.val = q.val; rw [k0_off1_eq]; show 0 + 1 * q.val = q.val; omega
end

section
variable (V : (c : Dev nD) → (b : Ref sig .tc) → Buf (Elt Ideal) ((c : Thread nD τ).loc b)) (c : Dev nD)

/-- The part of (A·X)(1024 i + p, q) that comes from columns 1024 k … 1024 k + 1023 of A. -/
def term0 (i k : ℕ) (p : Fin 1024) (q : Fin 512) : EReal :=
  ∑ s : Fin 1024, arrA (F := Ideal) V c (ix2 (rw10 i p) (rw10 k s)) * arrX (F := Ideal) V c (ix2 (rw10 k s) q)

theorem update_eq (t : Fin cfg0.N) (p : Fin 1024) (q : Fin 512) :
    (∑ s : Fin 1024, blkA (F := Ideal) V c t (ix2 p s) * (View.ld (blkX (F := Ideal) V c t) (rowsR (grid0.coords t)) : S1024x512.Idx → EReal) (ix2 s q))
      = term0 V c (t.val / 10) (t.val % 10) p q := by
  have hN : t.val < 100 := lt_of_lt_of_eq t.isLt (show cfg0.N = 100 from N_0)
  unfold term0
  refine Finset.sum_congr rfl fun s _ => ?_
  have hp : (rw10 (t.val / 10) p).val = 1024 * (t.val / 10) + p.val := by
    show (1024 * (t.val / 10) + p.val) % 10240 = _
    have := p.isLt; omega
  have hs : (rw10 (t.val % 10) s).val = 1024 * (t.val % 10) + s.val := by
    show (1024 * (t.val % 10) + s.val) % 10240 = _
    have := s.isLt; omega
  rw [blkA_apply V c t p s (rw10 (t.val / 10) p) (rw10 (t.val % 10) s) hp hs,
    ldX_apply t (blkX (F := Ideal) V c t) s q (rw10 (t.val % 10) s) hs, blkX_apply V c t]

theorem acc_first (t : Fin cfg0.N) (h0 : t.val % 10 = 0) (p : Fin 1024) (q : Fin 512) :
    accAt0 (F := Ideal) V c t.val t.isLt (ix2 p q) = term0 V c (t.val / 10) (t.val % 10) p q := by
  rw [accAt0_first V c t h0]
  refine (step_apply (View.ld (blkX (F := Ideal) V c t) (rowsR (grid0.coords t))) (k0_pay1 (F := Ideal)) (blkA (F := Ideal) V c t) p q).trans ?_
  rw [zero_apply, zero_add]
  exact update_eq V c t p q

theorem acc_next (t : Fin cfg0.N) (h0 : ¬t.val % 10 = 0) (p : Fin 1024) (q : Fin 512) :
    accAt0 (F := Ideal) V c t.val t.isLt (ix2 p q) = accAt0 (F := Ideal) V c (t.val - 1) (Nat.lt_of_le_of_lt (Nat.sub_le _ _) t.isLt) (ix2 p q) + term0 V c (t.val / 10) (t.val % 10) p q := by
  rw [accAt0_next V c t h0]
  refine (step_apply (View.ld (blkX (F := Ideal) V c t) (rowsR (grid0.coords t))) (accAt0 (F := Ideal) V c (t.val - 1) (Nat.lt_of_le_of_lt (Nat.sub_le _ _) t.isLt)) (blkA (F := Ideal) V c t) p q).trans ?_
  exact congrArg (accAt0 (F := Ideal) V c (t.val - 1) (Nat.lt_of_le_of_lt (Nat.sub_le _ _) t.isLt) (ix2 p q) + ·) (update_eq V c t p q)

/-- By induction on the position: after (i, k) the accumulator is the sum of the parts 0 … k. -/
theorem acc_inv : ∀ (n : ℕ) (t : Fin cfg0.N), t.val = n → ∀ (p : Fin 1024) (q : Fin 512),
    accAt0 (F := Ideal) V c t.val t.isLt (ix2 p q) = ∑ k ∈ Finset.range (t.val % 10 + 1), term0 V c (t.val / 10) k p q := by
  intro n
  induction n with
  | zero =>
    intro t ht p q
    have h0 : t.val % 10 = 0 := by rw [ht]
    rw [acc_first V c t h0 p q, h0, Finset.sum_range_one]
  | succ n ih =>
    intro t ht p q
    by_cases h0 : t.val % 10 = 0
    · rw [acc_first V c t h0 p q, h0, Finset.sum_range_one]
    · have hlt : t.val - 1 < cfg0.N := Nat.lt_of_le_of_lt (Nat.sub_le _ _) t.isLt
      have hprev := ih ⟨t.val - 1, hlt⟩ (by show t.val - 1 = n; omega) p q
      rw [acc_next V c t h0 p q, Finset.sum_range_succ]
      refine congrArg (· + term0 V c (t.val / 10) (t.val % 10) p q) ?_
      refine hprev.trans ?_
      show ∑ k ∈ Finset.range ((t.val - 1) % 10 + 1), term0 V c ((t.val - 1) / 10) k p q = _
      rw [show (t.val - 1) % 10 + 1 = t.val % 10 from by omega, show (t.val - 1) / 10 = t.val / 10 from by omega]
end

section
variable (V : (c : Dev nD) → (b : Ref sig .tc) → Buf (Elt Ideal) ((c : Thread nD τ).loc b)) (c : Dev nD)

/-- The region's result: (A·X)(r, j) · d(r). -/
def res0 (r : Fin 10240) (j : Fin 512) : EReal :=
  (∑ s : Fin 10240, arrA (F := Ideal) V c (ix2 r s) * arrX (F := Ideal) V c (ix2 s j)) * arrD (F := Ideal) V c (ix2 r (0 : Fin 1))

def resArr0 : S10240x512.Idx → EReal := fun i => res0 V c ⟨(i 0).val, (i 0).isLt⟩ ⟨(i 1).val, (i 1).isLt⟩

theorem resArr0_apply (i : S10240x512.Idx) (r : Fin 10240) (j : Fin 512) (hr : (i 0).val = r.val) (hj : (i 1).val = j.val) :
    resArr0 V c i = res0 V c r j := by
  unfold resArr0
  congr 1 <;> exact Fin.ext (by assumption)

theorem shares_eq (i : ℕ) (p : Fin 1024) (q : Fin 512) :
    ∑ k ∈ Finset.range 10, term0 V c i k p q
      = ∑ s : Fin 10240, arrA (F := Ideal) V c (ix2 (rw10 i p) s) * arrX (F := Ideal) V c (ix2 s q) :=
  (sum_blocks10 fun s => arrA (F := Ideal) V c (ix2 (rw10 i p) s) * arrX (F := Ideal) V c (ix2 s q)).symm

/-- At k = 9 all ten parts are in, so the block written back is the result's. -/
theorem flushed0_eq (t : Fin cfg0.N) (hf : (cfg0.win 3).flush t = true) :
    (dat0 (F := Ideal) V c).flushed 3 t = ((cfg0.win 3).blk t).view.read (Elt Ideal) (resArr0 V c) := by
  have hN : t.val < 100 := lt_of_lt_of_eq t.isLt (show cfg0.N = 100 from N_0)
  have h1 : t.val % 10 = 9 := (flush0_3 t).mp hf
  show (cfg0.win 3).cut (grid0.coords t) ((dat0 (F := Ideal) V c).after 3 t) = _
  rw [after0_3]
  refine funext fun y => ?_
  obtain ⟨p, q, rfl⟩ : ∃ (p : Fin 1024) (q : Fin 512), y = ix2 p q := ⟨y 0, y 1, eq_ix2 y⟩
  have hp : (rw10 (t.val / 10) p).val = 1024 * (t.val / 10) + p.val := by
    show (1024 * (t.val / 10) + p.val) % 10240 = _
    have := p.isLt; omega
  refine (scaled_apply (accAt0 (F := Ideal) V c t.val t.isLt) (blkD (F := Ideal) V c t) p q).trans ?_
  rw [acc_inv V c t.val t rfl p q, show t.val % 10 + 1 = 10 from by omega, shares_eq V c (t.val / 10) p q,
    blkD_apply V c t p (rw10 (t.val / 10) p) hp, View.read_apply]
  refine Eq.trans ?_ (resArr0_apply V c (((cfg0.win 3).blk t).view.emb (ix2 p q)) (rw10 (t.val / 10) p) q ?_ ?_).symm
  · rfl
  · show win0_3.index t 0 * 1024 + 1 * p.val = (rw10 (t.val / 10) p).val
    rw [(idx0_3 t).1, hp]; omega
  · show win0_3.index t 1 * 512 + 1 * q.val = q.val
    rw [(idx0_3 t).2]; omega
end

section
variable (V : (c : Dev nD) → (b : Ref sig .tc) → Buf (Elt Ideal) ((c : Thread nD τ).loc b)) (c : Dev nD)

/-- Row r is written at the point (r / 1024, 9), so the ten blocks cover the array. -/
theorem final0 : (dat0 (F := Ideal) V c).arrAt 3 cfg0.N = resArr0 V c :=
  (dat0 (F := Ideal) V c).arrAt_eq_of_cover 3 (resArr0 V c) (flushed0_eq V c) fun i => by
    have hi0 : (i 0).val < 10240 := (i 0).isLt
    have hi1 : (i 1).val < 512 := (i 1).isLt
    have hN : cfg0.N = 100 := N_0
    have htlt : 10 * ((i 0).val / 1024) + 9 < cfg0.N := by rw [hN]; omega
    refine ⟨⟨10 * ((i 0).val / 1024) + 9, htlt⟩, (flush0_3 _).mpr (by show (10 * ((i 0).val / 1024) + 9) % 10 = 9; omega), ?_⟩
    show i ∈ ((View.whole main_v19).slice (win0_3.rect ⟨10 * ((i 0).val / 1024) + 9, htlt⟩)).set
    rw [View.set_slice_whole, Rect.mem_set_unit]
    intro a
    match a with
    | ⟨0, _⟩ =>
      show win0_3.index ⟨10 * ((i 0).val / 1024) + 9, htlt⟩ 0 * 1024 ≤ (i 0 : Nat) ∧ (i 0 : Nat) < win0_3.index ⟨10 * ((i 0).val / 1024) + 9, htlt⟩ 0 * 1024 + 1024
      rw [(idx0_3 ⟨10 * ((i 0).val / 1024) + 9, htlt⟩).1]
      show (10 * ((i 0).val / 1024) + 9) / 10 * 1024 ≤ (i 0 : Nat) ∧ (i 0 : Nat) < (10 * ((i 0).val / 1024) + 9) / 10 * 1024 + 1024
      omega
    | ⟨1, _⟩ =>
      show win0_3.index ⟨10 * ((i 0).val / 1024) + 9, htlt⟩ 1 * 512 ≤ (i 1 : Nat) ∧ (i 1 : Nat) < win0_3.index ⟨10 * ((i 0).val / 1024) + 9, htlt⟩ 1 * 512 + 512
      rw [(idx0_3 ⟨10 * ((i 0).val / 1024) + 9, htlt⟩).2]
      omega
end

end Val0

open Val0

section
variable (V : (c : Dev nD) → (b : Ref sig .tc) → Buf (Elt Ideal) ((c : Thread nD τ).loc b)) (c : Dev nD)

abbrev arrA0 : S10240x10240.Idx → EReal := V c main_v15
abbrev arrX0 : S10240x512.Idx → EReal := V c main_v18
abbrev arrD0 : S10240x1.Idx → EReal := V c main_v17
abbrev arrO0 : S10240x512.Idx → EReal := (dat0 (F := Ideal) V c).arrAt 3 cfg0.N

theorem arrAt0_value (r : Fin 10240) (j : Fin 512) :
    arrO0 V c (ix2 r j)
      = (∑ s : Fin 10240, arrA0 V c (ix2 r s) * arrX0 V c (ix2 s j)) * arrD0 V c (ix2 r (0 : Fin 1)) := by
  show (dat0 (F := Ideal) V c).arrAt 3 cfg0.N (ix2 r j) = _
  rw [final0 V c]
  exact (resArr0_apply V c (ix2 r j) r j rfl rfl).trans rfl

end

end Cert.KernelIdeal.Fr

end
-- ==== Proof.R1Value.lean ====
import proofs.«420774_j10771777979054_1_alg».proof.Proof.R1Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

namespace Val1

section
variable {F : FTy → Type} [FloatOps F]
variable (V : (c : Dev nD) → (b : Ref sig .tc) → Buf (Elt F) ((c : Thread nD τ).loc b)) (c : Dev nD)

abbrev blkA (t : Fin cfg1.N) : Vec F S1024x1024 .bf16 := iblk1 V c 0 t
abbrev blkX (t : Fin cfg1.N) : Vec F S10240x512 .bf16 := iblk1 V c 1 t
abbrev blkD (t : Fin cfg1.N) : Vec F S1024x1 .f32 := iblk1 V c 2 t
abbrev arrA : Vec F S10240x10240 .bf16 := V c main_v15
abbrev arrX : Vec F S10240x512 .bf16 := V c main_v20
abbrev arrD : Vec F S10240x1 .f32 := V c main_v17

theorem idx1_0 : ∀ t : Fin cfg1.N, win1_0.index t 0 = t.val / 10 ∧ win1_0.index t 1 = t.val % 10 :=
  (by decide +kernel : ∀ t : Fin grid1.N, win1_0.index t 0 = t.val / 10 ∧ win1_0.index t 1 = t.val % 10)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = t.val / 10 ∧ win1_2.index t 1 = 0 :=
  (by decide +kernel : ∀ t : Fin grid1.N, win1_2.index t 0 = t.val / 10 ∧ win1_2.index t 1 = 0)
theorem idx1_3 : ∀ t : Fin cfg1.N, win1_3.index t 0 = t.val / 10 ∧ win1_3.index t 1 = 0 :=
  (by decide +kernel : ∀ t : Fin grid1.N, win1_3.index t 0 = t.val / 10 ∧ win1_3.index t 1 = 0)

theorem coord1_1 : ∀ t : Fin cfg1.N, (grid1.coords t 1).val = t.val % 10 :=
  (by decide +kernel : ∀ t : Fin grid1.N, (grid1.coords t 1).val = t.val % 10)

theorem blkA_apply (t : Fin cfg1.N) (p s : Fin 1024) (r : Fin 10240) (u : Fin 10240) (hr : r.val = 1024 * (t.val / 10) + p.val) (hu : u.val = 1024 * (t.val % 10) + s.val) :
    blkA V c t (ix2 p s) = arrA V c (ix2 r u) := by
  show iblk1 V c 0 t (ix2 p s) = _
  unfold iblk1
  rw [View.read_apply]
  show V c main_v15 _ = V c main_v15 _
  congr 1
  funext a
  apply Fin.ext
  match a with
  | ⟨0, _⟩ => show win1_0.index t 0 * 1024 + 1 * p.val = r.val; rw [(idx1_0 t).1]; omega
  | ⟨1, _⟩ => show win1_0.index t 1 * 1024 + 1 * s.val = u.val; rw [(idx1_0 t).2]; omega

theorem blkX_apply (t : Fin cfg1.N) (p : Fin 10240) (q : Fin 512) :
    blkX V c t (ix2 p q) = arrX V c (ix2 p q) := by
  show iblk1 V c 1 t (ix2 p q) = _
  unfold iblk1
  rw [View.read_apply]
  show V c main_v20 _ = V c main_v20 _
  congr 1
  funext a
  apply Fin.ext
  match a with
  | ⟨0, _⟩ => show win1_1.index t 0 * 10240 + 1 * p.val = p.val; rw [(idx1_1 t).1]; omega
  | ⟨1, _⟩ => show win1_1.index t 1 * 512 + 1 * q.val = q.val; rw [(idx1_1 t).2]; omega

theorem blkD_apply (t : Fin cfg1.N) (p : Fin 1024) (r : Fin 10240) (hr : r.val = 1024 * (t.val / 10) + p.val) :
    blkD V c t (ix2 p (0 : Fin 1)) = arrD V c (ix2 r (0 : Fin 1)) := by
  show iblk1 V c 2 t (ix2 p (0 : Fin 1)) = _
  unfold iblk1
  rw [View.read_apply]
  show V c main_v17 _ = V c main_v17 _
  congr 1
  funext a
  apply Fin.ext
  match a with
  | ⟨0, _⟩ => show win1_2.index t 0 * 1024 + 1 * p.val = r.val; rw [(idx1_2 t).1]; omega
  | ⟨1, _⟩ => show win1_2.index t 1 * 1 + 1 * (0 : Fin 1).val = (0 : Fin 1).val; rw [(idx1_2 t).2]; rfl

theorem ldX_apply (t : Fin cfg1.N) (X : Vec F S10240x512 .bf16) (s : Fin 1024) (q : Fin 512) (u : Fin 10240) (hu : u.val = 1024 * (t.val % 10) + s.val) :
    (View.ld X (rowsR (grid1.coords t)) : Vec F S1024x512 .bf16) (ix2 s q) = X (ix2 u q) := by
  show X _ = X _
  congr 1
  funext a
  apply Fin.ext
  match a with
  | ⟨0, _⟩ => show (k0_off1 (grid1.coords t)) 0 + 1 * s.val = u.val; rw [k0_off1_eq]; show 1024 * (grid1.coords t 1).val + 1 * s.val = u.val; rw [coord1_1 t]; omega
  | ⟨1, _⟩ => show (k0_off1 (grid1.coords t)) 1 + 1 * q.val = q.val; rw [k0_off1_eq]; show 0 + 1 * q.val = q.val; omega
end

section
variable (V : (c : Dev nD) → (b : Ref sig .tc) → Buf (Elt Ideal) ((c : Thread nD τ).loc b)) (c : Dev nD)

/-- The part of (A·X)(1024 i + p, q) that comes from columns 1024 k … 1024 k + 1023 of A. -/
def term1 (i k : ℕ) (p : Fin 1024) (q : Fin 512) : EReal :=
  ∑ s : Fin 1024, arrA (F := Ideal) V c (ix2 (rw10 i p) (rw10 k s)) * arrX (F := Ideal) V c (ix2 (rw10 k s) q)

theorem update_eq (t : Fin cfg1.N) (p : Fin 1024) (q : Fin 512) :
    (∑ s : Fin 1024, blkA (F := Ideal) V c t (ix2 p s) * (View.ld (blkX (F := Ideal) V c t) (rowsR (grid1.coords t)) : S1024x512.Idx → EReal) (ix2 s q))
      = term1 V c (t.val / 10) (t.val % 10) p q := by
  have hN : t.val < 100 := lt_of_lt_of_eq t.isLt (show cfg1.N = 100 from N_1)
  unfold term1
  refine Finset.sum_congr rfl fun s _ => ?_
  have hp : (rw10 (t.val / 10) p).val = 1024 * (t.val / 10) + p.val := by
    show (1024 * (t.val / 10) + p.val) % 10240 = _
    have := p.isLt; omega
  have hs : (rw10 (t.val % 10) s).val = 1024 * (t.val % 10) + s.val := by
    show (1024 * (t.val % 10) + s.val) % 10240 = _
    have := s.isLt; omega
  rw [blkA_apply V c t p s (rw10 (t.val / 10) p) (rw10 (t.val % 10) s) hp hs,
    ldX_apply t (blkX (F := Ideal) V c t) s q (rw10 (t.val % 10) s) hs, blkX_apply V c t]

theorem acc_first (t : Fin cfg1.N) (h0 : t.val % 10 = 0) (p : Fin 1024) (q : Fin 512) :
    accAt1 (F := Ideal) V c t.val t.isLt (ix2 p q) = term1 V c (t.val / 10) (t.val % 10) p q := by
  rw [accAt1_first V c t h0]
  refine (step_apply (View.ld (blkX (F := Ideal) V c t) (rowsR (grid1.coords t))) (k0_pay1 (F := Ideal)) (blkA (F := Ideal) V c t) p q).trans ?_
  rw [zero_apply, zero_add]
  exact update_eq V c t p q

theorem acc_next (t : Fin cfg1.N) (h0 : ¬t.val % 10 = 0) (p : Fin 1024) (q : Fin 512) :
    accAt1 (F := Ideal) V c t.val t.isLt (ix2 p q) = accAt1 (F := Ideal) V c (t.val - 1) (Nat.lt_of_le_of_lt (Nat.sub_le _ _) t.isLt) (ix2 p q) + term1 V c (t.val / 10) (t.val % 10) p q := by
  rw [accAt1_next V c t h0]
  refine (step_apply (View.ld (blkX (F := Ideal) V c t) (rowsR (grid1.coords t))) (accAt1 (F := Ideal) V c (t.val - 1) (Nat.lt_of_le_of_lt (Nat.sub_le _ _) t.isLt)) (blkA (F := Ideal) V c t) p q).trans ?_
  exact congrArg (accAt1 (F := Ideal) V c (t.val - 1) (Nat.lt_of_le_of_lt (Nat.sub_le _ _) t.isLt) (ix2 p q) + ·) (update_eq V c t p q)

/-- By induction on the position: after (i, k) the accumulator is the sum of the parts 0 … k. -/
theorem acc_inv : ∀ (n : ℕ) (t : Fin cfg1.N), t.val = n → ∀ (p : Fin 1024) (q : Fin 512),
    accAt1 (F := Ideal) V c t.val t.isLt (ix2 p q) = ∑ k ∈ Finset.range (t.val % 10 + 1), term1 V c (t.val / 10) k p q := by
  intro n
  induction n with
  | zero =>
    intro t ht p q
    have h0 : t.val % 10 = 0 := by rw [ht]
    rw [acc_first V c t h0 p q, h0, Finset.sum_range_one]
  | succ n ih =>
    intro t ht p q
    by_cases h0 : t.val % 10 = 0
    · rw [acc_first V c t h0 p q, h0, Finset.sum_range_one]
    · have hlt : t.val - 1 < cfg1.N := Nat.lt_of_le_of_lt (Nat.sub_le _ _) t.isLt
      have hprev := ih ⟨t.val - 1, hlt⟩ (by show t.val - 1 = n; omega) p q
      rw [acc_next V c t h0 p q, Finset.sum_range_succ]
      refine congrArg (· + term1 V c (t.val / 10) (t.val % 10) p q) ?_
      refine hprev.trans ?_
      show ∑ k ∈ Finset.range ((t.val - 1) % 10 + 1), term1 V c ((t.val - 1) / 10) k p q = _
      rw [show (t.val - 1) % 10 + 1 = t.val % 10 from by omega, show (t.val - 1) / 10 = t.val / 10 from by omega]
end

section
variable (V : (c : Dev nD) → (b : Ref sig .tc) → Buf (Elt Ideal) ((c : Thread nD τ).loc b)) (c : Dev nD)

/-- The region's result: (A·X)(r, j) · d(r). -/
def res1 (r : Fin 10240) (j : Fin 512) : EReal :=
  (∑ s : Fin 10240, arrA (F := Ideal) V c (ix2 r s) * arrX (F := Ideal) V c (ix2 s j)) * arrD (F := Ideal) V c (ix2 r (0 : Fin 1))

def resArr1 : S10240x512.Idx → EReal := fun i => res1 V c ⟨(i 0).val, (i 0).isLt⟩ ⟨(i 1).val, (i 1).isLt⟩

theorem resArr1_apply (i : S10240x512.Idx) (r : Fin 10240) (j : Fin 512) (hr : (i 0).val = r.val) (hj : (i 1).val = j.val) :
    resArr1 V c i = res1 V c r j := by
  unfold resArr1
  congr 1 <;> exact Fin.ext (by assumption)

theorem shares_eq (i : ℕ) (p : Fin 1024) (q : Fin 512) :
    ∑ k ∈ Finset.range 10, term1 V c i k p q
      = ∑ s : Fin 10240, arrA (F := Ideal) V c (ix2 (rw10 i p) s) * arrX (F := Ideal) V c (ix2 s q) :=
  (sum_blocks10 fun s => arrA (F := Ideal) V c (ix2 (rw10 i p) s) * arrX (F := Ideal) V c (ix2 s q)).symm

/-- At k = 9 all ten parts are in, so the block written back is the result's. -/
theorem flushed1_eq (t : Fin cfg1.N) (hf : (cfg1.win 3).flush t = true) :
    (dat1 (F := Ideal) V c).flushed 3 t = ((cfg1.win 3).blk t).view.read (Elt Ideal) (resArr1 V c) := by
  have hN : t.val < 100 := lt_of_lt_of_eq t.isLt (show cfg1.N = 100 from N_1)
  have h1 : t.val % 10 = 9 := (flush1_3 t).mp hf
  show (cfg1.win 3).cut (grid1.coords t) ((dat1 (F := Ideal) V c).after 3 t) = _
  rw [after1_3]
  refine funext fun y => ?_
  obtain ⟨p, q, rfl⟩ : ∃ (p : Fin 1024) (q : Fin 512), y = ix2 p q := ⟨y 0, y 1, eq_ix2 y⟩
  have hp : (rw10 (t.val / 10) p).val = 1024 * (t.val / 10) + p.val := by
    show (1024 * (t.val / 10) + p.val) % 10240 = _
    have := p.isLt; omega
  refine (scaled_apply (accAt1 (F := Ideal) V c t.val t.isLt) (blkD (F := Ideal) V c t) p q).trans ?_
  rw [acc_inv V c t.val t rfl p q, show t.val % 10 + 1 = 10 from by omega, shares_eq V c (t.val / 10) p q,
    blkD_apply V c t p (rw10 (t.val / 10) p) hp, View.read_apply]
  refine Eq.trans ?_ (resArr1_apply V c (((cfg1.win 3).blk t).view.emb (ix2 p q)) (rw10 (t.val / 10) p) q ?_ ?_).symm
  · rfl
  · show win1_3.index t 0 * 1024 + 1 * p.val = (rw10 (t.val / 10) p).val
    rw [(idx1_3 t).1, hp]; omega
  · show win1_3.index t 1 * 512 + 1 * q.val = q.val
    rw [(idx1_3 t).2]; omega
end

section
variable (V : (c : Dev nD) → (b : Ref sig .tc) → Buf (Elt Ideal) ((c : Thread nD τ).loc b)) (c : Dev nD)

/-- Row r is written at the point (r / 1024, 9), so the ten blocks cover the array. -/
theorem final1 : (dat1 (F := Ideal) V c).arrAt 3 cfg1.N = resArr1 V c :=
  (dat1 (F := Ideal) V c).arrAt_eq_of_cover 3 (resArr1 V c) (flushed1_eq V c) fun i => by
    have hi0 : (i 0).val < 10240 := (i 0).isLt
    have hi1 : (i 1).val < 512 := (i 1).isLt
    have hN : cfg1.N = 100 := N_1
    have htlt : 10 * ((i 0).val / 1024) + 9 < cfg1.N := by rw [hN]; omega
    refine ⟨⟨10 * ((i 0).val / 1024) + 9, htlt⟩, (flush1_3 _).mpr (by show (10 * ((i 0).val / 1024) + 9) % 10 = 9; omega), ?_⟩
    show i ∈ ((View.whole main_v21).slice (win1_3.rect ⟨10 * ((i 0).val / 1024) + 9, htlt⟩)).set
    rw [View.set_slice_whole, Rect.mem_set_unit]
    intro a
    match a with
    | ⟨0, _⟩ =>
      show win1_3.index ⟨10 * ((i 0).val / 1024) + 9, htlt⟩ 0 * 1024 ≤ (i 0 : Nat) ∧ (i 0 : Nat) < win1_3.index ⟨10 * ((i 0).val / 1024) + 9, htlt⟩ 0 * 1024 + 1024
      rw [(idx1_3 ⟨10 * ((i 0).val / 1024) + 9, htlt⟩).1]
      show (10 * ((i 0).val / 1024) + 9) / 10 * 1024 ≤ (i 0 : Nat) ∧ (i 0 : Nat) < (10 * ((i 0).val / 1024) + 9) / 10 * 1024 + 1024
      omega
    | ⟨1, _⟩ =>
      show win1_3.index ⟨10 * ((i 0).val / 1024) + 9, htlt⟩ 1 * 512 ≤ (i 1 : Nat) ∧ (i 1 : Nat) < win1_3.index ⟨10 * ((i 0).val / 1024) + 9, htlt⟩ 1 * 512 + 512
      rw [(idx1_3 ⟨10 * ((i 0).val / 1024) + 9, htlt⟩).2]
      omega
end

end Val1

open Val1

section
variable (V : (c : Dev nD) → (b : Ref sig .tc) → Buf (Elt Ideal) ((c : Thread nD τ).loc b)) (c : Dev nD)

abbrev arrA1 : S10240x10240.Idx → EReal := V c main_v15
abbrev arrX1 : S10240x512.Idx → EReal := V c main_v20
abbrev arrD1 : S10240x1.Idx → EReal := V c main_v17
abbrev arrO1 : S10240x512.Idx → EReal := (dat1 (F := Ideal) V c).arrAt 3 cfg1.N

theorem arrAt1_value (r : Fin 10240) (j : Fin 512) :
    arrO1 V c (ix2 r j)
      = (∑ s : Fin 10240, arrA1 V c (ix2 r s) * arrX1 V c (ix2 s j)) * arrD1 V c (ix2 r (0 : Fin 1)) := by
  show (dat1 (F := Ideal) V c).arrAt 3 cfg1.N (ix2 r j) = _
  rw [final1 V c]
  exact (resArr1_apply V c (ix2 r j) r j rfl rfl).trans rfl

end

end Cert.KernelIdeal.Fr

end
-- ==== Proof.R2Value.lean ====
/-
  The dense-layer region's result at (r, q): hop q / 512's layer of row r at column q % 512; the thirty blocks cover the array.
-/
import proofs.«420774_j10771777979054_1_alg».proof.Proof.R2Data
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

theorem zeroOffs2_2 : (![0, 0] : Fin 2 → Nat) = fun _ => 0 := funext fun a => by fin_cases a <;> rfl
theorem zeroOffs2_3 : (![0, 0, 0] : Fin 3 → Nat) = fun _ => 0 := funext fun a => by fin_cases a <;> rfl

theorem out2_3_eq_pay (x0 : Vec Ideal S1x1024x512 .f32) (x1 : Vec Ideal S1x512x512 .f32) (x2 : Vec Ideal S1x1x512 .f32) :
    out2_3 (F := Ideal) x0 x1 x2 = k2_pay1 x0 x1 x2 := by
  unfold out2_3
  rw [View.canon_unit_zero zeroOffs2_2]
  simp only [View.ld_unit_zero (S := S1x1024x512) zeroOffs2_3, View.ld_unit_zero (S := S1x512x512) zeroOffs2_3,
    View.ld_unit_zero (S := S1x1x512) zeroOffs2_3]

theorem lhs_mm2_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm2_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mm2_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mm2_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem mm2_apply (A : FVec Ideal S1024x512 .bf16) (B : FVec Ideal S512x512 .bf16) (p : Fin 1024) (j : Fin 512) :
    matmul dot_S1024x512_S512x512_S1024x512_1_0_0_1_n_n none A B (constant (F := Ideal) S1024x512 .f32 0x00000000#32) (ix2 p j)
      = ∑ k : Fin 512, A (ix2 p k) * B (ix2 k j) := by
  show FloatOps.matmul dot_S1024x512_S512x512_S1024x512_1_0_0_1_n_n none A B (constant (F := Ideal) S1024x512 .f32 0x00000000#32) (ix2 p j) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p j) ((contrEquiv1 dot_S1024x512_S512x512_S1024x512_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S1024x512_S512x512_S1024x512_1_0_0_1_n_n.rhsIdx (ix2 p j) ((contrEquiv1 dot_S1024x512_S512x512_S1024x512_1_0_0_1_n_n 512 rfl rfl).symm k) = ix2 k j := funext fun a => Fin.ext (by
    match a with
    | ⟨0, _⟩ => exact (rhs_mm2_0 _ _).trans hk
    | ⟨1, _⟩ => exact rhs_mm2_1 _ _)
  rw [el, er]

theorem pay2_apply (x0 : Vec Ideal S1x1024x512 .f32) (x1 : Vec Ideal S1x512x512 .f32) (x2 : Vec Ideal S1x1x512 .f32)
    (p : Fin 1024) (j : Fin 512) :
    k2_pay1 (F := Ideal) x0 x1 x2 (ix2 p j)
      = max ((∑ k : Fin 512, x0 (ix3 (0 : Fin 1) p k) * x1 (ix3 (0 : Fin 1) k j)) + x2 (ix3 (0 : Fin 1) (0 : Fin 1) j)) 0 := by
  unfold k2_pay1
  refine (maximumf_apply _ _ _).trans ?_
  refine congrArg₂ max ?_ ?_
  · refine (addf_apply _ _ _).trans ?_
    refine congrArg₂ (· + ·) ?_ ?_
    · refine (mm2_apply _ _ p j).trans ?_
      refine Finset.sum_congr rfl fun k _ => ?_
      refine congrArg₂ (· * ·) ?_ ?_
      · exact shapeCast_1ab_ab_apply x0 _ p k
      · exact shapeCast_1ab_ab_apply x1 _ k j
    · exact (broadcastTo_1b_ab_apply _ _ p j).trans (shapeCast_1ab_ab_apply x2 _ (0 : Fin 1) j)
  · exact Ideal.ofBits_zero_f32

/-- Row block and hop of an entry, and the layer there. -/
def layer2 (H : S3x10240x512.Idx → EReal) (W : S3x512x512.Idx → EReal) (B : S3x1x512.Idx → EReal)
    (r : Fin 10240) (q : Fin 1536) : EReal :=
  max ((∑ k : Fin 512, H (ix3 (⟨q.val / 512, by omega⟩ : Fin 3) r k)
          * W (ix3 (⟨q.val / 512, by omega⟩ : Fin 3) k (⟨q.val % 512, Nat.mod_lt _ (by decide)⟩ : Fin 512)))
      + B (ix3 (⟨q.val / 512, by omega⟩ : Fin 3) (0 : Fin 1) (⟨q.val % 512, Nat.mod_lt _ (by decide)⟩ : Fin 512))) 0

theorem layer2_at (H : S3x10240x512.Idx → EReal) (W : S3x512x512.Idx → EReal) (B : S3x1x512.Idx → EReal)
    (r : Fin 10240) (q : Fin 1536) (hh : Fin 3) (j : Fin 512) (hq : q.val = 512 * hh.val + j.val) :
    layer2 H W B r q = max ((∑ k : Fin 512, H (ix3 hh r k) * W (ix3 hh k j)) + B (ix3 hh (0 : Fin 1) j)) 0 := by
  have e1 : (⟨q.val / 512, by omega⟩ : Fin 3) = hh := Fin.ext (by show q.val / 512 = hh.val; omega)
  have e2 : (⟨q.val % 512, Nat.mod_lt _ (by decide)⟩ : Fin 512) = j := Fin.ext (by show q.val % 512 = j.val; omega)
  unfold layer2
  rw [e1, e2]

abbrev G2 (H : S3x10240x512.Idx → EReal) (W : S3x512x512.Idx → EReal) (B : S3x1x512.Idx → EReal) : S10240x1536.Idx → EReal :=
  fun i => layer2 H W B (i 0) (i 1)

theorem idx_facts2 : ∀ t : Fin cfg2.N,
    win2_0.index t (0 : Fin 3) = win2_3.index t (1 : Fin 2) ∧ win2_0.index t (1 : Fin 3) = win2_3.index t (0 : Fin 2)
    ∧ win2_0.index t (2 : Fin 3) = 0
    ∧ win2_1.index t (0 : Fin 3) = win2_3.index t (1 : Fin 2) ∧ win2_1.index t (1 : Fin 3) = 0 ∧ win2_1.index t (2 : Fin 3) = 0
    ∧ win2_2.index t (0 : Fin 3) = win2_3.index t (1 : Fin 2) ∧ win2_2.index t (1 : Fin 3) = 0 ∧ win2_2.index t (2 : Fin 3) = 0
    ∧ win2_3.index t (0 : Fin 2) ≤ 9 ∧ win2_3.index t (1 : Fin 2) ≤ 2 :=
  (by decide +kernel : ∀ t : Fin grid2.N, _)

theorem idx_onto2 : ∀ (q0 : Fin 10) (q1 : Fin 3), ∃ t : Fin cfg2.N, win2_3.index t = ![q0.val, q1.val] :=
  (by decide +kernel : ∀ (q0 : Fin 10) (q1 : Fin 3), ∃ t : Fin grid2.N, win2_3.index t = ![q0.val, q1.val])

section
variable (V : (c : Dev nD) → (b : Ref sig .tc) → Buf (Elt Ideal) ((c : Thread nD τ).loc b)) (c : Dev nD)

abbrev arrH2 : S3x10240x512.Idx → EReal := V c main_v25
abbrev arrW2 : S3x512x512.Idx → EReal := V c main_arg3
abbrev arrB2 : S3x1x512.Idx → EReal := V c main_v26
abbrev arrO2 : S10240x1536.Idx → EReal := (dat2 (F := Ideal) V c).arrAt 3 cfg2.N

theorem flushed2_3_eq (t : Fin cfg2.N) :
    (dat2 (F := Ideal) V c).flushed 3 t
      = ((cfg2.win 3).blk t).view.read (Elt Ideal) (G2 (arrH2 V c) (arrW2 V c) (arrB2 V c)) := by
  show (cfg2.win 3).cut (grid2.coords t) ((dat2 (F := Ideal) V c).after 3 t) = _
  rw [after2_3, out2_3_eq_pay]
  obtain ⟨e0, e1, e2, e3, e4, e5, e6, e7, e8, b0, b1⟩ := idx_facts2 t
  funext y
  obtain ⟨p, j, rfl⟩ : ∃ (p : Fin 1024) (j : Fin 512), y = ix2 p j := ⟨y 0, y 1, eq_ix2 y⟩
  have hp : p.val < 1024 := p.isLt
  have hj : j.val < 512 := j.isLt

  obtain ⟨r, hr⟩ : ∃ r : Fin 10240, r.val = win2_3.index t (0 : Fin 2) * 1024 + 1 * p.val := ⟨⟨_, by omega⟩, rfl⟩
  obtain ⟨q, hq⟩ : ∃ q : Fin 1536, q.val = win2_3.index t (1 : Fin 2) * 512 + 1 * j.val := ⟨⟨_, by omega⟩, rfl⟩
  have hemb : ((cfg2.win 3).blk t).view.emb (ix2 p j) = ix2 r q := funext fun a => Fin.ext (by
    match a with
    | ⟨0, _⟩ => exact hr.symm
    | ⟨1, _⟩ => exact hq.symm)
  show k2_pay1 (iblk2 V c 0 t) (iblk2 V c 1 t) (iblk2 V c 2 t) (ix2 p j)
      = G2 (arrH2 V c) (arrW2 V c) (arrB2 V c) (((cfg2.win 3).blk t).view.emb (ix2 p j))
  rw [hemb]
  show _ = layer2 (arrH2 V c) (arrW2 V c) (arrB2 V c) r q
  refine ((pay2_apply _ _ _ p j).trans ?_).trans
    (layer2_at _ _ _ r q ⟨win2_3.index t (1 : Fin 2), by omega⟩ j (by rw [hq]; show _ = 512 * win2_3.index t (1 : Fin 2) + j.val; omega)).symm
  refine congrArg₂ max (congrArg₂ (· + ·) (Finset.sum_congr rfl fun k _ => congrArg₂ (· * ·) ?_ ?_) ?_) rfl
  · show V c main_v25 (((cfg2.win 0).blk t).view.emb (ix3 (0 : Fin 1) p k)) = V c main_v25 (ix3 _ r k)
    refine congrArg _ (funext fun a => Fin.ext ?_)
    match a with
    | ⟨0, _⟩ => show win2_0.index t (0 : Fin 3) * 1 + 1 * 0 = win2_3.index t (1 : Fin 2); omega
    | ⟨1, _⟩ => show win2_0.index t (1 : Fin 3) * 1024 + 1 * p.val = r.val; omega
    | ⟨2, _⟩ => show win2_0.index t (2 : Fin 3) * 512 + 1 * k.val = k.val; omega
  · show V c main_arg3 (((cfg2.win 1).blk t).view.emb (ix3 (0 : Fin 1) k j)) = V c main_arg3 (ix3 _ k j)
    refine congrArg _ (funext fun a => Fin.ext ?_)
    match a with
    | ⟨0, _⟩ => show win2_1.index t (0 : Fin 3) * 1 + 1 * 0 = win2_3.index t (1 : Fin 2); omega
    | ⟨1, _⟩ => show win2_1.index t (1 : Fin 3) * 512 + 1 * k.val = k.val; omega
    | ⟨2, _⟩ => show win2_1.index t (2 : Fin 3) * 512 + 1 * j.val = j.val; omega
  · show V c main_v26 (((cfg2.win 2).blk t).view.emb (ix3 (0 : Fin 1) (0 : Fin 1) j)) = V c main_v26 (ix3 _ (0 : Fin 1) j)
    refine congrArg _ (funext fun a => Fin.ext ?_)
    match a with
    | ⟨0, _⟩ => show win2_2.index t (0 : Fin 3) * 1 + 1 * 0 = win2_3.index t (1 : Fin 2); omega
    | ⟨1, _⟩ => show win2_2.index t (1 : Fin 3) * 1 + 1 * 0 = 0; omega
    | ⟨2, _⟩ => show win2_2.index t (2 : Fin 3) * 512 + 1 * j.val = j.val; omega

theorem mem_blk2_3 (t : Fin cfg2.N) (i : S10240x1536.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v27).slice (win2_3.rect t)).set ↔ _
  rw [View.set_slice_whole, Rect.mem_set_unit]
  exact Iff.rfl

theorem covered2_3 (i : S10240x1536.Idx) :
    ∃ t : Fin cfg2.N, (cfg2.win 3).flush t = true ∧ i ∈ ((cfg2.win 3).blk t).view.set := by
  have hi0 : (i 0).val < 10240 := (i 0).isLt
  have hi1 : (i 1).val < 1536 := (i 1).isLt
  obtain ⟨t, ht⟩ := idx_onto2 ⟨(i 0).val / 1024, by omega⟩ ⟨(i 1).val / 512, by omega⟩
  have q0 : win2_3.index t (0 : Fin 2) = (i 0).val / 1024 := congrFun ht 0
  have q1 : win2_3.index t (1 : Fin 2) = (i 1).val / 512 := congrFun ht 1
  refine ⟨t, flush2_3 t, ?_⟩
  rw [mem_blk2_3]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

theorem arrO2_eq : arrO2 V c = G2 (arrH2 V c) (arrW2 V c) (arrB2 V c) :=
  (dat2 (F := Ideal) V c).arrAt_eq_of_cover 3 (G2 (arrH2 V c) (arrW2 V c) (arrB2 V c)) (fun t _ => flushed2_3_eq V c t) covered2_3

theorem arrAt2_value (r : Fin 10240) (q : Fin 1536) :
    arrO2 V c (ix2 r q)
      = max ((∑ k : Fin 512, arrH2 V c (ix3 (⟨q.val / 512, by omega⟩ : Fin 3) r k)
              * arrW2 V c (ix3 (⟨q.val / 512, by omega⟩ : Fin 3) k (⟨q.val % 512, Nat.mod_lt _ (by decide)⟩ : Fin 512)))
          + arrB2 V c (ix3 (⟨q.val / 512, by omega⟩ : Fin 3) (0 : Fin 1) (⟨q.val % 512, Nat.mod_lt _ (by decide)⟩ : Fin 512))) 0 := by
  exact congrFun (arrO2_eq V c) (ix2 r q)

end

end Cert.KernelIdeal.Fr

end
-- ==== Proof.Spec.lean ====
/-
  A graph convolution with two hops, stated over the extended reals: one hop maps features h to
  (∑ over edges e into r of h(src e) · w e) · dn r; hop k's features then pass a dense layer max (h·W k + b k) 0.
  The reference sums edge by edge; the kernel multiplies by a dense 10240 × 10240 adjacency matrix over zero-padded rows.
-/
import Idealize.ShloMosaic.PureOps.Ideal
import Idealize.ShloMosaic.Lib.ValueIdx

noncomputable section

open scoped BigOperators

namespace Cert.Gcn

/-- A negative index word has the extent added. -/
def wrapIdx (n : BitVec 32) (x : BitVec 32) : BitVec 32 := if x.toInt < 0 then x + n else x

/-- The row a gather reads: the normalised word, clamped to 0 … 9999. -/
def srcRow (x : BitVec 32) : Fin 10000 := ⟨min (wrapIdx 10000#32 x).toInt.toNat 9999, by omega⟩

section
variable (src dst : Fin 160000 → BitVec 32) (w : Fin 160000 → EReal)

/-- One hop, edge by edge: row r collects the edges whose destination word is r. -/
def hopRef (dn : Fin 10000 → EReal) (h : Fin 10000 → Fin 512 → EReal) : Fin 10000 → Fin 512 → EReal :=
  fun r j => (∑ e ∈ Finset.univ.filter (fun e : Fin 160000 => (dst e).toInt = (r.val : Int)), h (srcRow (src e)) j * w e) * dn r

/-- The dense adjacency matrix: entry (r, s) sums the weights of the edges from s to r. -/
def adj : Fin 10240 → Fin 10240 → EReal := fun r s =>
  ∑ e ∈ Finset.univ.filter (fun e : Fin 160000 =>
    (wrapIdx 10240#32 (dst e)).toInt = (r.val : Int) ∧ (wrapIdx 10240#32 (src e)).toInt = (s.val : Int)), w e
end

def padRows {n : Nat} (h : Fin 10000 → Fin n → EReal) : Fin 10240 → Fin n → EReal :=
  fun r j => if hr : r.val < 10000 then h ⟨r.val, hr⟩ j else 0

def padCol (d : Fin 10000 → EReal) : Fin 10240 → EReal :=
  fun r => if hr : r.val < 10000 then d ⟨r.val, hr⟩ else 0

/-- One hop as a matrix product with a renormalised row. -/
def hopK (A : Fin 10240 → Fin 10240 → EReal) (D : Fin 10240 → EReal) (X : Fin 10240 → Fin 512 → EReal) :
    Fin 10240 → Fin 512 → EReal :=
  fun r j => (∑ s : Fin 10240, A r s * X s j) * D r

/-- Hop h's dense layer. -/
def layer {ι : Type} (W : Fin 3 → Fin 512 → Fin 512 → EReal) (b : Fin 3 → Fin 512 → EReal) (h : Fin 3)
    (H : ι → Fin 512 → EReal) : ι → Fin 512 → EReal :=
  fun r j => max ((∑ k : Fin 512, H r k * W h k j) + b h j) 0

section
variable (src dst : Fin 160000 → BitVec 32) (w : Fin 160000 → EReal)
  (feat : Fin 10000 → Fin 512 → EReal) (dn : Fin 10000 → EReal)
  (W : Fin 3 → Fin 512 → Fin 512 → EReal) (b : Fin 3 → Fin 512 → EReal)

def stackRef (h : Fin 3) : Fin 10000 → Fin 512 → EReal := (hopRef src dst w dn)^[h.val] feat

def stackK (h : Fin 3) : Fin 10240 → Fin 512 → EReal := (hopK (adj src dst w) (padCol dn))^[h.val] (padRows feat)

/-- Column q of the result is column q % 512 of layer q / 512. -/
def gcnRef : Fin 10000 → Fin 1536 → EReal := fun r q =>
  layer W b ⟨q.val / 512, by omega⟩ (stackRef src dst w feat dn ⟨q.val / 512, by omega⟩) r ⟨q.val % 512, Nat.mod_lt _ (by decide)⟩

def gcnK : Fin 10240 → Fin 1536 → EReal := fun r q =>
  layer W b ⟨q.val / 512, by omega⟩ (stackK src dst w feat dn ⟨q.val / 512, by omega⟩) r ⟨q.val % 512, Nat.mod_lt _ (by decide)⟩
end

end Cert.Gcn

end
-- ==== Proof.KRead.lean ====
/-
  The host operations read at an index, and the three regions' results composed: entry (r, q) of the program's
  result is the graph convolution in the dense arrangement.
-/
import proofs.«420774_j10771777979054_1_alg».proof.Proof.Spec
import proofs.«420774_j10771777979054_1_alg».proof.Proof.KTerms
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine
import Idealize.ShloMosaic.Lib.ValueIdxRank1

noncomputable section

open scoped BigOperators

namespace Cert.KRead

open Idealize.ShloMosaic Idealize.ShloMosaic.ValueIdx Cert.KernelIdeal Cert.KernelIdeal.KT

theorem tWrap_apply (a : IVec S160000 32) (i : S160000.Idx) :
    tWrap a i = Cert.Gcn.wrapIdx 10240#32 (a i) := by
  show Scalar.select (IntOp.cmpi .slt (a i) 0#32) (IntOp.addi (a i) 10240#32) (a i) = _
  unfold Cert.Gcn.wrapIdx Scalar.select IntOp.addi
  have hc : IntOp.cmpi .slt (a i) 0#32 = 1#1 ↔ (a i).toInt < 0 := by
    rw [IntOp.cmpi_slt]; simp
  by_cases h : (a i).toInt < 0
  · rw [if_pos h]; exact if_pos (hc.mpr h)
  · rw [if_neg h]; exact if_neg (fun hc' => h (hc.mp hc'))

theorem tIdx_col0 (a5 a6 : IVec S160000 32) (e : Fin 160000) :
    tIdx a5 a6 (ix2 e (0 : Fin 2)) = tWrap a6 (ix1 e) := by
  unfold tIdx
  refine (concatenate_pair_apply_left (t := S160000x2) (s₁ := S160000x1) (s₂ := S160000x1) 1 _ _ _
    (ix2 e (0 : Fin 2)) rfl (ix2 e (0 : Fin 1)) (fun b => ?_)).trans ?_
  · match b with
    | ⟨0, _⟩ => rfl
    | ⟨1, _⟩ => rfl
  · refine broadcastInDim_apply _ _ _ _ (ix1 e) (fun a => ?_)
    match a with
    | ⟨0, _⟩ => rfl

theorem tIdx_col1 (a5 a6 : IVec S160000 32) (e : Fin 160000) :
    tIdx a5 a6 (ix2 e (1 : Fin 2)) = tWrap a5 (ix1 e) := by
  unfold tIdx
  refine (concatenate_pair_apply_right (t := S160000x2) (s₁ := S160000x1) (s₂ := S160000x1) 1 _ _ _
    (ix2 e (1 : Fin 2)) rfl rfl (ix2 e (0 : Fin 1)) (fun b hb => ?_) rfl).trans ?_
  · match b with
    | ⟨0, _⟩ => rfl
    | ⟨1, _⟩ => exact absurd rfl hb
  · refine broadcastInDim_apply _ _ _ _ (ix1 e) (fun a => ?_)
    match a with
    | ⟨0, _⟩ => rfl

/-- Rows appended at the end: the array on its own rows, the padding value below. -/
theorem pad_rows_apply {α : Type} {n m c : Nat} (x : (⟨2, ![n, c]⟩ : Shape).Idx → α) {u : Shape} (v : u.Idx → α)
    (hi : Fin 2 → Nat) (h : (⟨2, ![n, c]⟩ : Shape).Pads ![0, 0] hi ![0, 0] ⟨2, ![m, c]⟩) (hu : 0 < u.numel)
    (s : Fin m) (j : Fin c) :
    pad ⟨2, ![m, c]⟩ ![0, 0] hi ![0, 0] x v h hu (ix2 s j)
      = if hs : s.val < n then x (ix2 ⟨s.val, hs⟩ j) else v (Shape.Idx.first hu) := by
  unfold pad
  by_cases hs : s.val < n
  · have hin : ∀ a : Fin (⟨2, ![n, c]⟩ : Shape).rank,
        (![0, 0] : Fin 2 → Nat) a ≤ (ix2 s j (a.cast h.1)).val
          ∧ ((ix2 s j (a.cast h.1)).val - (![0, 0] : Fin 2 → Nat) a) % ((![0, 0] : Fin 2 → Nat) a + 1) = 0
          ∧ ((ix2 s j (a.cast h.1)).val - (![0, 0] : Fin 2 → Nat) a) / ((![0, 0] : Fin 2 → Nat) a + 1)
              < (⟨2, ![n, c]⟩ : Shape).size a := by
      intro a
      match a with
      | ⟨0, _⟩ =>
        show 0 ≤ s.val ∧ (s.val - 0) % (0 + 1) = 0 ∧ (s.val - 0) / (0 + 1) < n
        omega
      | ⟨1, _⟩ =>
        show 0 ≤ j.val ∧ (j.val - 0) % (0 + 1) = 0 ∧ (j.val - 0) / (0 + 1) < c
        have := j.isLt
        omega
    rw [dif_pos hin, dif_pos hs]
    refine congrArg x (funext fun a => ?_)
    match a with
    | ⟨0, _⟩ =>
      refine Fin.ext ?_
      show (s.val - 0) / (0 + 1) = s.val
      omega
    | ⟨1, _⟩ =>
      refine Fin.ext ?_
      show (j.val - 0) / (0 + 1) = j.val
      omega
  · rw [dif_neg hs, dif_neg]
    intro hin
    have h0 := (hin ⟨0, Nat.zero_lt_two⟩).2.2
    apply hs
    have h0' : (s.val - 0) / (0 + 1) < n := h0
    omega

theorem padVal_eq_zero (k : S_.Idx) :
    (sitofp (F := Ideal) .f32 (constantI S_ 32 0#32) k : EReal) = 0 := by
  show (((0#32 : BitVec 32).toInt : ℝ) : EReal) = 0
  simp

theorem tPadF_apply (a0 : FVec Ideal S10000x512 .f32) (s : Fin 10240) (j : Fin 512) :
    (tPadF a0 (ix2 s j) : EReal) = Cert.Gcn.padRows (fun r j => (a0 (ix2 r j) : EReal)) s j := by
  unfold tPadF Cert.Gcn.padRows
  rw [pad_rows_apply]
  by_cases hs : s.val < 10000
  · rw [dif_pos hs, dif_pos hs]
  · rw [dif_neg hs, dif_neg hs, padVal_eq_zero]

theorem tD_apply (a1 : FVec Ideal S10000x1 .f32) (r : Fin 10240) :
    (tD a1 (ix2 r (0 : Fin 1)) : EReal) = Cert.Gcn.padCol (fun r => (a1 (ix2 r (0 : Fin 1)) : EReal)) r := by
  unfold tD Cert.Gcn.padCol
  rw [pad_rows_apply]
  by_cases hs : r.val < 10000
  · rw [dif_pos hs, dif_pos hs]
  · rw [dif_neg hs, dif_neg hs, padVal_eq_zero]

/-- The stack at (h, r, k) is the h-th input at (r, k). -/
theorem tStack_apply (x y z : FVec Ideal S10240x512 .f32) (h : Fin 3) (r : Fin 10240) (k : Fin 512) :
    tStack x y z (ix3 h r k)
      = if h.val = 0 then x (ix2 r k) else if h.val = 1 then y (ix2 r k) else z (ix2 r k) := by
  have hb : ∀ (hbc : S10240x512.BroadcastsInDim S1x10240x512 (![1, 2] : Fin 2 → Fin S1x10240x512.rank))
      (u : FVec Ideal S10240x512 .f32),
      broadcastInDim S1x10240x512 ![1, 2] hbc u (ix3 (0 : Fin 1) r k) = u (ix2 r k) := by
    intro hbc u
    refine broadcastInDim_apply _ _ _ _ (ix2 r k) (fun a => ?_)
    match a with
    | ⟨0, _⟩ => rfl
    | ⟨1, _⟩ => rfl
  unfold tStack
  match h with
  | ⟨0, _⟩ =>
    rw [if_pos rfl]
    refine (concatenate_apply_piece (t := S3x10240x512) 0 _ _ _ 0 (by show (0 : ℕ) < 3; omega) S1x10240x512 _ rfl rfl 0 rfl
      (ix3 (0 : Fin 1) r k) (fun b hb' => ?_) rfl).trans (hb _ x)
    match b with
    | ⟨0, _⟩ => exact absurd rfl hb'
    | ⟨1, _⟩ => rfl
    | ⟨2, _⟩ => rfl
  | ⟨1, _⟩ =>
    rw [if_neg (by show ¬ (1 : ℕ) = 0; omega), if_pos rfl]
    refine (concatenate_apply_piece (t := S3x10240x512) 0 _ _ _ 1 (by show (1 : ℕ) < 3; omega) S1x10240x512 _ rfl rfl 1 rfl
      (ix3 (0 : Fin 1) r k) (fun b hb' => ?_) rfl).trans (hb _ y)
    match b with
    | ⟨0, _⟩ => exact absurd rfl hb'
    | ⟨1, _⟩ => rfl
    | ⟨2, _⟩ => rfl
  | ⟨2, _⟩ =>
    rw [if_neg (by show ¬ (2 : ℕ) = 0; omega), if_neg (by show ¬ (2 : ℕ) = 1; omega)]
    refine (concatenate_apply_piece (t := S3x10240x512) 0 _ _ _ 2 (by show (2 : ℕ) < 3; omega) S1x10240x512 _ rfl rfl 2 rfl
      (ix3 (0 : Fin 1) r k) (fun b hb' => ?_) rfl).trans (hb _ z)
    match b with
    | ⟨0, _⟩ => exact absurd rfl hb'
    | ⟨1, _⟩ => rfl
    | ⟨2, _⟩ => rfl

theorem tB3_apply (a4 : FVec Ideal S3x512 .f32) (h : Fin 3) (j : Fin 512) :
    tB3 a4 (ix3 h (0 : Fin 1) j) = a4 (ix2 h j) := by
  unfold tB3
  refine shapeCast_apply a4 _ _ (ix2 h j) ?_
  rw [Shape.rowMajor_val_three, Shape.rowMajor_val_two]
  show h.val * 512 + j.val = (h.val * 1 + 0) * 512 + j.val
  omega

theorem tOut_apply (o : FVec Ideal S10240x1536 .f32) (r : Fin 10000) (q : Fin 1536) :
    tOut o (ix2 r q) = o (ix2 (⟨r.val, by omega⟩ : Fin 10240) q) := by
  unfold tOut
  exact slice2_axis0_apply 0 o _ r q _ (Nat.zero_add _).symm

abbrev scD := scatter_S10240x10240_S160000x2_S160000_n_01_01_1

theorem sc_siIdx (e : Fin 160000) (c : Fin 2) :
    scD.siIdx (ix1 e) c = ix2 e c := by
  funext b
  match b with
  | ⟨0, _⟩ => rfl
  | ⟨1, _⟩ => rfl

theorem sc_start0 (idx : IVec S160000x2 32) (e : Fin 160000) :
    scD.start (ix1 e) idx (0 : Fin 2) = (idx (ix2 e (0 : Fin 2))).toInt := by
  unfold ScatterDims.start
  have ha : (0 : Fin 2) ∈ scD.scatterDimsToOperandDims := by
    show (0 : Fin 2) ∈ ([0, 1] : List (Fin 2))
    decide
  rw [dif_pos ha]
  exact congrArg (fun k => (idx k).toInt) (sc_siIdx e 0)

theorem sc_start1 (idx : IVec S160000x2 32) (e : Fin 160000) :
    scD.start (ix1 e) idx (1 : Fin 2) = (idx (ix2 e (1 : Fin 2))).toInt := by
  unfold ScatterDims.start
  have ha : (1 : Fin 2) ∈ scD.scatterDimsToOperandDims := by
    show (1 : Fin 2) ∈ ([0, 1] : List (Fin 2))
    decide
  rw [dif_pos ha]
  exact congrArg (fun k => (idx k).toInt) (sc_siIdx e 1)

theorem sc_window (j : S160000.Idx) (a : Fin 2) : scD.window j a = 0 := by
  unfold ScatterDims.window
  rw [dif_neg]
  show ¬ a ∈ (S10240x10240.kept ([0, 1] : List (Fin 2)))
  revert a
  decide

/-- Edge e lands at (r, s) exactly when its two index words, read signed, are r and s. -/
theorem sc_resultIdx (idx : IVec S160000x2 32) (e : Fin 160000) (r s : Fin 10240) :
    scD.resultIdx? (ix1 e) idx = some (ix2 r s)
      ↔ (idx (ix2 e (0 : Fin 2))).toInt = (r.val : Int) ∧ (idx (ix2 e (1 : Fin 2))).toInt = (s.val : Int) := by
  unfold ScatterDims.resultIdx?
  constructor
  · intro h
    split at h
    · rename_i hin
      have hf := Option.some.inj h
      have h0 := congrArg (fun f => (f (0 : Fin 2)).val) hf
      have h1 := congrArg (fun f => (f (1 : Fin 2)).val) hf
      have i0 := hin (0 : Fin 2)
      have i1 := hin (1 : Fin 2)
      have h0' : (scD.start (ix1 e) idx (0 : Fin 2) + ((scD.window (ix1 e) (0 : Fin 2) : ℕ) : ℤ)).toNat = r.val := h0
      have h1' : (scD.start (ix1 e) idx (1 : Fin 2) + ((scD.window (ix1 e) (1 : Fin 2) : ℕ) : ℤ)).toNat = s.val := h1
      rw [sc_start0, sc_window] at h0' i0
      rw [sc_start1, sc_window] at h1' i1
      omega
    · exact absurd h (by simp)
  · rintro ⟨h0, h1⟩
    have hin : ∀ a : Fin S10240x10240.rank,
        0 ≤ scD.start (ix1 e) idx a + ((scD.window (ix1 e) a : ℕ) : ℤ) ∧
          scD.start (ix1 e) idx a + ((scD.window (ix1 e) a : ℕ) : ℤ) < ((S10240x10240.size a : ℕ) : ℤ) := by
      intro a
      match a with
      | ⟨0, _⟩ =>
        show 0 ≤ scD.start (ix1 e) idx (0 : Fin 2) + ((scD.window (ix1 e) (0 : Fin 2) : ℕ) : ℤ) ∧
          scD.start (ix1 e) idx (0 : Fin 2) + ((scD.window (ix1 e) (0 : Fin 2) : ℕ) : ℤ) < ((10240 : ℕ) : ℤ)
        rw [sc_start0, sc_window, h0]
        have := r.isLt
        omega
      | ⟨1, _⟩ =>
        show 0 ≤ scD.start (ix1 e) idx (1 : Fin 2) + ((scD.window (ix1 e) (1 : Fin 2) : ℕ) : ℤ) ∧
          scD.start (ix1 e) idx (1 : Fin 2) + ((scD.window (ix1 e) (1 : Fin 2) : ℕ) : ℤ) < ((10240 : ℕ) : ℤ)
        rw [sc_start1, sc_window, h1]
        have := s.isLt
        omega
    rw [dif_pos hin]
    refine congrArg some (funext fun a => ?_)
    match a with
    | ⟨0, _⟩ =>
      refine Fin.ext ?_
      show (scD.start (ix1 e) idx (0 : Fin 2) + ((scD.window (ix1 e) (0 : Fin 2) : ℕ) : ℤ)).toNat = r.val
      rw [sc_start0, sc_window, h0]
      omega
    | ⟨1, _⟩ =>
      refine Fin.ext ?_
      show (scD.start (ix1 e) idx (1 : Fin 2) + ((scD.window (ix1 e) (1 : Fin 2) : ℕ) : ℤ)).toNat = s.val
      rw [sc_start1, sc_window, h1]
      omega

/-- The scattered matrix at (r, s) is the sum of the weights landing there. -/
theorem tA_apply (a2 : FVec Ideal S160000 .f32) (a5 a6 : IVec S160000 32) (r s : Fin 10240) :
    (tA a2 a5 a6 (ix2 r s) : EReal)
      = Cert.Gcn.adj (fun e => a5 (ix1 e)) (fun e => a6 (ix1 e)) (fun e => (a2 (ix1 e) : EReal)) r s := by
  have hz : ∀ (hb : S_.BroadcastsInDim S10240x10240 (![] : Fin 0 → Fin S10240x10240.rank)),
      (broadcastInDim S10240x10240 ![] hb (constant (F := Ideal) S_ .f32 0x00000000#32)) (ix2 r s) = (0 : EReal) :=
    fun _ => Ideal.ofBits_zero_f32
  unfold tA
  rw [truncf_apply]
  unfold Host.scatterAdd
  rw [Ideal.hostScatterAdd_def]
  unfold Ideal.hostScatterAdd Cert.Gcn.adj
  rw [hz, zero_add, Finset.sum_filter, Finset.sum_filter]
  refine ((Equiv.sum_comp idxEquiv1.symm _).symm.trans ?_)
  refine Finset.sum_congr rfl (fun e _ => ?_)
  refine if_congr ?_ rfl rfl
  show scD.resultIdx? (ix1 e) (tIdx a5 a6) = some (ix2 r s) ↔ _
  rw [sc_resultIdx, tIdx_col0, tIdx_col1, tWrap_apply, tWrap_apply]

/-- The hop inputs are the features after 0, 1 and 2 matrix hops. -/
theorem stack_eq
    (a0 : FVec Ideal S10000x512 .f32) (a1 : FVec Ideal S10000x1 .f32) (a2 : FVec Ideal S160000 .f32)
    (a5 a6 : IVec S160000 32) (o0 o1 : FVec Ideal S10240x512 .f32)
    (h0 : ∀ (r : Fin 10240) (j : Fin 512), (o0 (ix2 r j) : EReal)
      = (∑ s : Fin 10240, (tA a2 a5 a6 (ix2 r s) : EReal) * (tBf (tPadF a0) (ix2 s j) : EReal)) * (tD a1 (ix2 r (0 : Fin 1)) : EReal))
    (h1 : ∀ (r : Fin 10240) (j : Fin 512), (o1 (ix2 r j) : EReal)
      = (∑ s : Fin 10240, (tA a2 a5 a6 (ix2 r s) : EReal) * (tBf o0 (ix2 s j) : EReal)) * (tD a1 (ix2 r (0 : Fin 1)) : EReal))
    (h : Fin 3) (r : Fin 10240) (k : Fin 512) :
    (tStack (tPadF a0) o0 o1 (ix3 h r k) : EReal)
      = Cert.Gcn.stackK (fun e => a5 (ix1 e)) (fun e => a6 (ix1 e)) (fun e => (a2 (ix1 e) : EReal))
          (fun r j => (a0 (ix2 r j) : EReal)) (fun r => (a1 (ix2 r (0 : Fin 1)) : EReal)) h r k := by
  have e0 : ∀ (r : Fin 10240) (j : Fin 512), (o0 (ix2 r j) : EReal)
      = Cert.Gcn.hopK (Cert.Gcn.adj (fun e => a5 (ix1 e)) (fun e => a6 (ix1 e)) (fun e => (a2 (ix1 e) : EReal)))
          (Cert.Gcn.padCol (fun r => (a1 (ix2 r (0 : Fin 1)) : EReal)))
          (Cert.Gcn.padRows (fun r j => (a0 (ix2 r j) : EReal))) r j := by
    intro r j
    have hsum : (∑ s : Fin 10240, (tA a2 a5 a6 (ix2 r s) : EReal) * (tBf (tPadF a0) (ix2 s j) : EReal))
        = ∑ s : Fin 10240,
            Cert.Gcn.adj (fun e => a5 (ix1 e)) (fun e => a6 (ix1 e)) (fun e => (a2 (ix1 e) : EReal)) r s
              * Cert.Gcn.padRows (fun r j => (a0 (ix2 r j) : EReal)) s j := by
      refine Finset.sum_congr rfl (fun s _ => ?_)
      rw [tA_apply, ← tPadF_apply]
      rfl
    rw [h0 r j, hsum, tD_apply]
    rfl
  have e1 : ∀ (r : Fin 10240) (j : Fin 512), (o1 (ix2 r j) : EReal)
      = Cert.Gcn.hopK (Cert.Gcn.adj (fun e => a5 (ix1 e)) (fun e => a6 (ix1 e)) (fun e => (a2 (ix1 e) : EReal)))
          (Cert.Gcn.padCol (fun r => (a1 (ix2 r (0 : Fin 1)) : EReal)))
          (fun (s : Fin 10240) (j : Fin 512) => (o0 (ix2 s j) : EReal)) r j := by
    intro r j
    have hsum : (∑ s : Fin 10240, (tA a2 a5 a6 (ix2 r s) : EReal) * (tBf o0 (ix2 s j) : EReal))
        = ∑ s : Fin 10240,
            Cert.Gcn.adj (fun e => a5 (ix1 e)) (fun e => a6 (ix1 e)) (fun e => (a2 (ix1 e) : EReal)) r s
              * (o0 (ix2 s j) : EReal) := by
      refine Finset.sum_congr rfl (fun s _ => ?_)
      rw [tA_apply]
      rfl
    rw [h1 r j, hsum, tD_apply]
    rfl
  have e0' : (fun (s : Fin 10240) (j : Fin 512) => (o0 (ix2 s j) : EReal))
      = Cert.Gcn.hopK (Cert.Gcn.adj (fun e => a5 (ix1 e)) (fun e => a6 (ix1 e)) (fun e => (a2 (ix1 e) : EReal)))
          (Cert.Gcn.padCol (fun r => (a1 (ix2 r (0 : Fin 1)) : EReal)))
          (Cert.Gcn.padRows (fun r j => (a0 (ix2 r j) : EReal))) := funext fun s => funext fun j => e0 s j
  rw [tStack_apply]
  have hv : h.val = 0 ∨ h.val = 1 ∨ h.val = 2 := by omega
  rcases hv with hv | hv | hv
  · rw [if_pos hv, tPadF_apply]
    unfold Cert.Gcn.stackK
    rw [hv]
    rfl
  · rw [if_neg (by omega), if_pos hv, e0 r k]
    unfold Cert.Gcn.stackK
    rw [hv]
    rfl
  · rw [if_neg (by omega), if_neg (by omega), e1 r k, e0']
    unfold Cert.Gcn.stackK
    rw [hv]
    rfl

theorem kernel_compose
    (a0 : FVec Ideal S10000x512 .f32) (a1 : FVec Ideal S10000x1 .f32) (a2 : FVec Ideal S160000 .f32)
    (a3 : FVec Ideal S3x512x512 .f32) (a4 : FVec Ideal S3x512 .f32) (a5 a6 : IVec S160000 32)
    (o0 o1 : FVec Ideal S10240x512 .f32) (o2 : FVec Ideal S10240x1536 .f32)
    (h0 : ∀ (r : Fin 10240) (j : Fin 512), (o0 (ix2 r j) : EReal)
      = (∑ s : Fin 10240, (tA a2 a5 a6 (ix2 r s) : EReal) * (tBf (tPadF a0) (ix2 s j) : EReal)) * (tD a1 (ix2 r (0 : Fin 1)) : EReal))
    (h1 : ∀ (r : Fin 10240) (j : Fin 512), (o1 (ix2 r j) : EReal)
      = (∑ s : Fin 10240, (tA a2 a5 a6 (ix2 r s) : EReal) * (tBf o0 (ix2 s j) : EReal)) * (tD a1 (ix2 r (0 : Fin 1)) : EReal))
    (h2 : ∀ (r : Fin 10240) (q : Fin 1536), (o2 (ix2 r q) : EReal)
      = max ((∑ k : Fin 512, (tStack (tPadF a0) o0 o1 (ix3 (⟨q.val / 512, by omega⟩ : Fin 3) r k) : EReal)
            * (a3 (ix3 (⟨q.val / 512, by omega⟩ : Fin 3) k (⟨q.val % 512, Nat.mod_lt _ (by decide)⟩ : Fin 512)) : EReal))
          + (tB3 a4 (ix3 (⟨q.val / 512, by omega⟩ : Fin 3) (0 : Fin 1) (⟨q.val % 512, Nat.mod_lt _ (by decide)⟩ : Fin 512)) : EReal)) 0)
    (r : Fin 10000) (q : Fin 1536) :
    (tOut o2 (ix2 r q) : EReal)
      = Cert.Gcn.gcnK (fun e => a5 (ix1 e)) (fun e => a6 (ix1 e)) (fun e => a2 (ix1 e))
          (fun r j => a0 (ix2 r j)) (fun r => a1 (ix2 r (0 : Fin 1))) (fun h k j => a3 (ix3 h k j)) (fun h j => a4 (ix2 h j))
          ⟨r.val, by omega⟩ q := by
  unfold Cert.Gcn.gcnK Cert.Gcn.layer
  rw [tOut_apply, h2, tB3_apply]
  simp only [stack_eq a0 a1 a2 a5 a6 o0 o1 h0 h1]

end Cert.KRead

end
-- ==== Proof.KValue.lean ====
/-
  The program's result at (r, q): the cut of the dense layers' result, over the stack of the padded features and the
  two adjacency products, each over the scattered matrix.
-/
import proofs.«420774_j10771777979054_1_alg».proof.Proof.KVals
import proofs.«420774_j10771777979054_1_alg».proof.Proof.R0Value
import proofs.«420774_j10771777979054_1_alg».proof.Proof.R1Value
import proofs.«420774_j10771777979054_1_alg».proof.Proof.R2Value
import proofs.«420774_j10771777979054_1_alg».proof.Proof.KRead

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

open Cert.KernelIdeal.KT

variable (m : (ℓ : Loc nD τ sig) → Buf (Elt Ideal) ℓ) (ρ : Dev nD → PrngReg) (c : Dev nD)

abbrev resK : S10000x1536.Idx → EReal := W11 (F := Ideal) m ρ c (Proc.devRef .tc main_v28)

theorem kernel_value (r : Fin 10000) (q : Fin 1536) :
    resK m ρ c (ix2 r q)
      = Cert.Gcn.gcnK
          (fun e => (m ((c : Thread nD τ).loc main_arg5) : S160000.Idx → BitVec 32) (ix1 e))
          (fun e => (m ((c : Thread nD τ).loc main_arg6) : S160000.Idx → BitVec 32) (ix1 e))
          (fun e => (m ((c : Thread nD τ).loc main_arg2) : S160000.Idx → EReal) (ix1 e))
          (fun r j => (m ((c : Thread nD τ).loc main_arg0) : S10000x512.Idx → EReal) (ix2 r j))
          (fun r => (m ((c : Thread nD τ).loc main_arg1) : S10000x1.Idx → EReal) (ix2 r (0 : Fin 1)))
          (fun h k j => (m ((c : Thread nD τ).loc main_arg3) : S3x512x512.Idx → EReal) (ix3 h k j))
          (fun h j => (m ((c : Thread nD τ).loc main_arg4) : S3x512.Idx → EReal) (ix2 h j))
          ⟨r.val, by omega⟩ q := by
  have hres : resK m ρ c = tOut (F := Ideal) (V10 m ρ c main_v27) := W11_v28 m ρ c
  rw [hres]
  refine Cert.KRead.kernel_compose (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
    (V6 m ρ c main_v19) (V8 m ρ c main_v21) (V10 m ρ c main_v27) ?_ ?_ ?_ r q
  · intro r j
    have e := arrAt0_value (V5 m ρ) c r j
    rw [show arrO0 (V5 m ρ) c = V6 m ρ c main_v19 from hF0 m ρ c 3,
      show arrA0 (V5 m ρ) c = tA (F := Ideal) _ _ _ from V5_v15 m ρ c,
      show arrX0 (V5 m ρ) c = tBf (F := Ideal) (tPadF _) from V5_v18 m ρ c,
      show arrD0 (V5 m ρ) c = tD (F := Ideal) _ from V5_v17 m ρ c] at e
    exact e
  · intro r j
    have e := arrAt1_value (V7 m ρ) c r j
    rw [show arrO1 (V7 m ρ) c = V8 m ρ c main_v21 from hF1 m ρ c 3,
      show arrA1 (V7 m ρ) c = tA (F := Ideal) _ _ _ from (V7_v15 m ρ c).trans (V5_v15 m ρ c),
      show arrX1 (V7 m ρ) c = tBf (F := Ideal) (V6 m ρ c main_v19) from V7_v20 m ρ c,
      show arrD1 (V7 m ρ) c = tD (F := Ideal) _ from (V7_v17 m ρ c).trans (V5_v17 m ρ c)] at e
    exact e
  · intro r q
    have e := arrAt2_value (V9 m ρ) c r q
    rw [show arrO2 (V9 m ρ) c = V10 m ρ c main_v27 from hF2 m ρ c 3,
      show arrH2 (V9 m ρ) c = tStack (F := Ideal) (tPadF _) (V6 m ρ c main_v19) (V8 m ρ c main_v21) from
        (V9_v25 m ρ c).trans (by rw [V5_v16 m ρ c]),
      show arrW2 (V9 m ρ) c = m ((c : Thread nD τ).loc main_arg3) from V9_arg3 m ρ c,
      show arrB2 (V9 m ρ) c = tB3 (F := Ideal) _ from V9_v26 m ρ c] at e
    exact e

end Cert.KernelIdeal.Fr

end
-- ==== Proof.RefRun.lean ====
import proofs.«420774_j10771777979054_1_alg».proof.Proof.Gen.ReferenceIdeal.Run
import proofs.«420774_j10771777979054_1_alg».proof.Proof.Gen.ReferenceIdeal.Read
-- ==== Proof.RefRead.lean ====
/-
  The reference's result at (r, q) is the graph convolution in the edge-by-edge arrangement.
-/
import proofs.«420774_j10771777979054_1_alg».proof.Proof.Spec
import proofs.«420774_j10771777979054_1_alg».proof.Proof.RefRun

noncomputable section

open scoped BigOperators

namespace Cert.RefRead

open Idealize.ShloMosaic Idealize.ShloMosaic.ValueIdx Idealize.SL.Sem Cert.ReferenceIdeal

theorem select_wrap (x : BitVec 32) :
    Scalar.select (IntOp.cmpi .slt x 0#32) (IntOp.addi x 10000#32) x = Cert.Gcn.wrapIdx 10000#32 x := by
  have h0 : (0#32 : BitVec 32).toInt = 0 := by decide
  by_cases h : x.toInt < 0
  · have hs : x.slt 0#32 = true := by simp [BitVec.slt, h0, h]
    simp [Scalar.select, IntOp.cmpi, IntOp.addi, Cert.Gcn.wrapIdx, hs, h]
  · have hs : x.slt 0#32 = false := by simp [BitVec.slt, h0, h]
    simp [Scalar.select, IntOp.cmpi, IntOp.addi, Cert.Gcn.wrapIdx, hs, h]

def clampRow (x : BitVec 32) : Fin 10000 := ⟨min x.toInt.toNat 9999, by omega⟩

/-- The gather at (e, j) reads row clamp(idx e) at column j. -/
theorem gather_apply {α : Type} (x : S10000x512.Idx → α) (idx : IVec S160000x1 32) (e : Fin 160000) (j : Fin 512) :
    Host.gather gather_S10000x512_S160000x1_S160000x512_1_0_n_n_0_1_1512 x idx (ix2 e j)
      = x (ix2 (clampRow (idx (ix2 e 0))) j) := by
  unfold Host.gather
  congr 1
  funext a
  refine Fin.ext ?_
  match a with
  | ⟨0, _⟩ =>
    show gather_S10000x512_S160000x1_S160000x512_1_0_n_n_0_1_1512.start (ix2 e j) idx 0
        + gather_S10000x512_S160000x1_S160000x512_1_0_n_n_0_1_1512.batchCoord (ix2 e j) 0
        + gather_S10000x512_S160000x1_S160000x512_1_0_n_n_0_1_1512.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x512_S160000x1_S160000x512_1_0_n_n_0_1_1512.startIndexMap from List.mem_singleton.mpr rfl)]
    have hsi : gather_S10000x512_S160000x1_S160000x512_1_0_n_n_0_1_1512.siIdx (ix2 e j)
        ⟨List.idxOf (0 : Fin 2) gather_S10000x512_S160000x1_S160000x512_1_0_n_n_0_1_1512.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S10000x512_S160000x1_S160000x512_1_0_n_n_0_1_1512.start (ix2 e j) idx 1
        + gather_S10000x512_S160000x1_S160000x512_1_0_n_n_0_1_1512.batchCoord (ix2 e j) 1
        + gather_S10000x512_S160000x1_S160000x512_1_0_n_n_0_1_1512.offCoord (ix2 e j) 1 = j.val
    rw [GatherDims.batchCoord_eq_zero _ _ _ List.not_mem_nil]
    have hs : gather_S10000x512_S160000x1_S160000x512_1_0_n_n_0_1_1512.start (ix2 e j) idx 1 = 0 := by
      unfold GatherDims.start
      rw [dif_neg (show ¬ (1 : Fin 2) ∈ gather_S10000x512_S160000x1_S160000x512_1_0_n_n_0_1_1512.startIndexMap by decide)]
    rw [hs]
    simp only [Nat.zero_add]
    unfold GatherDims.offCoord
    rw [dif_pos (show (1 : Fin 2) ∈ gather_S10000x512_S160000x1_S160000x512_1_0_n_n_0_1_1512.sKept by decide)]
    rfl

abbrev sd : ScatterDims S10000x512 S160000x1 S160000x512 := scatter_S10000x512_S160000x1_S160000x512_1_0_0_1

theorem sd_start0 (idx : IVec S160000x1 32) (e : Fin 160000) (j : Fin 512) :
    sd.start (ix2 e j) idx 0 = (idx (ix2 e 0)).toInt := by
  unfold ScatterDims.start
  rw [dif_pos (show (0 : Fin 2) ∈ sd.scatterDimsToOperandDims from List.mem_singleton.mpr rfl)]
  have hsi : sd.siIdx (ix2 e j)
      ⟨List.idxOf (0 : Fin 2) sd.scatterDimsToOperandDims, List.idxOf_lt_length_iff.2 (List.mem_singleton.mpr rfl)⟩ = ix2 e 0 := by
    funext b; refine Fin.ext ?_
    match b with
    | ⟨0, _⟩ => rfl
    | ⟨1, _⟩ => rfl
  rw [hsi]

theorem sd_start1 (idx : IVec S160000x1 32) (e : Fin 160000) (j : Fin 512) :
    sd.start (ix2 e j) idx 1 = 0 := by
  unfold ScatterDims.start
  rw [dif_neg (show ¬ (1 : Fin 2) ∈ sd.scatterDimsToOperandDims by decide)]

theorem sd_window0 (e : Fin 160000) (j : Fin 512) : sd.window (ix2 e j) 0 = 0 := by
  unfold ScatterDims.window
  rw [dif_neg (show ¬ (0 : Fin 2) ∈ sd.sKept by decide)]

theorem sd_window1 (e : Fin 160000) (j : Fin 512) : sd.window (ix2 e j) 1 = j.val := by
  unfold ScatterDims.window
  rw [dif_pos (show (1 : Fin 2) ∈ sd.sKept by decide)]
  rfl

/-- The update (e, j') lands at (r, j) exactly when edge e's destination word is r and j' = j. -/
theorem sd_resultIdx_iff (idx : IVec S160000x1 32) (e : Fin 160000) (j' j : Fin 512) (r : Fin 10000) :
    sd.resultIdx? (ix2 e j') idx = some (ix2 r j) ↔ (idx (ix2 e 0)).toInt = (r.val : Int) ∧ j' = j := by
  unfold ScatterDims.resultIdx?
  constructor
  · intro h
    split at h
    · next hc =>
      have h' := Option.some.inj h
      have e0 : (sd.start (ix2 e j') idx 0 + ((sd.window (ix2 e j') 0 : Nat) : Int)).toNat = r.val :=
        congrArg (fun f : S10000x512.Idx => (f 0).val) h'
      have e1 : (sd.start (ix2 e j') idx 1 + ((sd.window (ix2 e j') 1 : Nat) : Int)).toNat = j.val :=
        congrArg (fun f : S10000x512.Idx => (f 1).val) h'
      have c0 := (hc 0).1
      rw [sd_start0, sd_window0] at e0 c0
      rw [sd_start1, sd_window1] at e1
      exact ⟨by omega, Fin.ext (by omega)⟩
    · exact absurd h (by simp)
  · rintro ⟨h0, rfl⟩
    have hc : ∀ a : Fin S10000x512.rank,
        0 ≤ sd.start (ix2 e j') idx a + ((sd.window (ix2 e j') a : Nat) : Int) ∧
          sd.start (ix2 e j') idx a + ((sd.window (ix2 e j') a : Nat) : Int) < ((S10000x512.size a : Nat) : Int) := by
      intro a
      match a with
      | ⟨0, _⟩ =>
        show 0 ≤ sd.start (ix2 e j') idx 0 + ((sd.window (ix2 e j') 0 : Nat) : Int) ∧
          sd.start (ix2 e j') idx 0 + ((sd.window (ix2 e j') 0 : Nat) : Int) < ((10000 : Nat) : Int)
        rw [sd_start0, sd_window0, h0]
        have := r.isLt
        omega
      | ⟨1, _⟩ =>
        show 0 ≤ sd.start (ix2 e j') idx 1 + ((sd.window (ix2 e j') 1 : Nat) : Int) ∧
          sd.start (ix2 e j') idx 1 + ((sd.window (ix2 e j') 1 : Nat) : Int) < ((512 : Nat) : Int)
        rw [sd_start1, sd_window1]
        have := j'.isLt
        omega
    rw [dif_pos hc]
    congr 1
    funext a
    refine Fin.ext ?_
    match a with
    | ⟨0, _⟩ =>
      show (sd.start (ix2 e j') idx 0 + ((sd.window (ix2 e j') 0 : Nat) : Int)).toNat = r.val
      rw [sd_start0, sd_window0, h0]
      omega
    | ⟨1, _⟩ =>
      show (sd.start (ix2 e j') idx 1 + ((sd.window (ix2 e j') 1 : Nat) : Int)).toNat = j'.val
      rw [sd_start1, sd_window1]
      omega

/-- The accumulating scatter at (r, j): the operand plus the updates of the edges into r. -/
theorem scatter_apply (x : FVec Ideal S10000x512 .f32) (idx : IVec S160000x1 32) (upd : FVec Ideal S160000x512 .f32)
    (r : Fin 10000) (j : Fin 512) :
    Host.scatterAdd (F := Ideal) sd x idx upd (ix2 r j)
      = x (ix2 r j) + ∑ e ∈ Finset.univ.filter (fun e : Fin 160000 => (idx (ix2 e 0)).toInt = (r.val : Int)), upd (ix2 e j) := by
  show x (ix2 r j) + ∑ u ∈ Finset.univ.filter (fun u => sd.resultIdx? u idx = some (ix2 r j)), upd u = _
  refine congrArg (fun t : EReal => x (ix2 r j) + t) ?_
  symm
  refine Finset.sum_bij (fun e _ => (ix2 e j : S160000x512.Idx)) ?_ ?_ ?_ ?_
  · intro e he
    rw [Finset.mem_filter] at he ⊢
    exact ⟨Finset.mem_univ _, (sd_resultIdx_iff idx e j j r).2 ⟨he.2, rfl⟩⟩
  · intro e₁ _ e₂ _ h
    exact congrArg (fun f : S160000x512.Idx => f 0) h
  · intro u hu
    rw [Finset.mem_filter] at hu
    have hu2 := hu.2
    rw [eq_ix2 u] at hu2
    have := (sd_resultIdx_iff idx (u 0) (u 1) j r).1 hu2
    refine ⟨u 0, Finset.mem_filter.2 ⟨Finset.mem_univ _, this.1⟩, ?_⟩
    have hu' : (ix2 (u 0) (u 1) : S160000x512.Idx) = u := (eq_ix2 u).symm
    rw [this.2] at hu'
    exact hu'
  · intro e _
    rfl

abbrev gd : GatherDims S10000x512 S160000x1 S160000x512 := gather_S10000x512_S160000x1_S160000x512_1_0_n_n_0_1_1512

/-- Gather, weight, scatter-add and renormalise make one edge hop. -/
theorem hop_apply (y z dv : FVec Ideal S10000x512 .f32) (di si : IVec S160000x1 32) (wv : FVec Ideal S160000x512 .f32)
    (src dst : Fin 160000 → BitVec 32) (w : Fin 160000 → EReal) (dn : Fin 10000 → EReal)
    (hz : ∀ i, z i = 0) (hdi : ∀ e, di (ix2 e 0) = dst e)
    (hsi : ∀ e, si (ix2 e 0) = Cert.Gcn.wrapIdx 10000#32 (src e))
    (hw : ∀ e j, wv (ix2 e j) = w e) (hd : ∀ r j, dv (ix2 r j) = dn r) (r : Fin 10000) (j : Fin 512) :
    mulf (Host.scatterAdd (F := Ideal) sd z di (mulf (Host.gather gd y si) wv)) dv (ix2 r j)
      = Cert.Gcn.hopRef src dst w dn (fun r j => y (ix2 r j)) r j := by
  rw [mulf_apply, scatter_apply, hz, zero_add, hd]
  unfold Cert.Gcn.hopRef
  refine congrArg (fun t : EReal => t * dn r) ?_
  rw [Finset.filter_congr (fun e _ => by rw [hdi])]
  refine Finset.sum_congr rfl fun e _ => ?_
  rw [mulf_apply, gather_apply, hsi, hw]
  rfl

abbrev dd : DotDims S10000x512 S512x512 S10000x512 := dot_S10000x512_S512x512_S10000x512_1_0_0_1_n_n

theorem dot_apply (y : FVec Ideal S10000x512 .f32) (Wv : FVec Ideal S512x512 .f32) (r : Fin 10000) (j : Fin 512) :
    Host.dotGeneral (F := Ideal) dd none y Wv (ix2 r j) = ∑ k : Fin 512, y (ix2 r k) * Wv (ix2 k j) := by
  simp only [Host.dotGeneral]
  rw [Ideal.dotGeneral_apply, ← Equiv.sum_comp (ValueIdx.contrEquiv1 dd 512 rfl rfl).symm]
  refine Finset.sum_congr rfl fun k _ => ?_
  have hk := ValueIdx.contrEquiv1_symm_val dd 512 rfl rfl k
  have el : dd.lhsIdx (ix2 r j) ((ValueIdx.contrEquiv1 dd 512 rfl rfl).symm k) = ix2 r k := funext fun a => Fin.ext (by
    match a with
    | ⟨0, _⟩ => exact Read.lhs_main_v32_0 _ _
    | ⟨1, _⟩ => exact (Read.lhs_main_v32_1 _ _).trans hk)
  have er : dd.rhsIdx (ix2 r j) ((ValueIdx.contrEquiv1 dd 512 rfl rfl).symm k) = ix2 k j := funext fun a => Fin.ext (by
    match a with
    | ⟨0, _⟩ => exact (Read.rhs_main_v32_0 _ _).trans hk
    | ⟨1, _⟩ => exact Read.rhs_main_v32_1 _ _)
  rw [el, er]

/-- Contraction, bias and maximum with zero make one dense layer. -/
theorem layer_apply (y bv zv : FVec Ideal S10000x512 .f32) (Wv : FVec Ideal S512x512 .f32)
    (W : Fin 3 → Fin 512 → Fin 512 → EReal) (b : Fin 3 → Fin 512 → EReal) (h : Fin 3)
    (hW : ∀ k j, Wv (ix2 k j) = W h k j) (hb : ∀ r j, bv (ix2 r j) = b h j) (hz : ∀ i, zv i = 0)
    (r : Fin 10000) (j : Fin 512) :
    maximumf (addf (Host.dotGeneral (F := Ideal) dd none y Wv) bv) zv (ix2 r j)
      = Cert.Gcn.layer W b h (fun r k => y (ix2 r k)) r j := by
  rw [maximumf_apply, addf_apply, dot_apply, hz, hb]
  unfold Cert.Gcn.layer
  refine congrArg (fun t : EReal => max (t + b h j) 0) ?_
  exact Finset.sum_congr rfl fun k _ => by rw [hW]

open Cert.ReferenceIdeal.Read

section Operands
variable (x0 : FVec Ideal S10000x512 .f32) (x1 : FVec Ideal S10000x1 .f32) (x2 : FVec Ideal S160000 .f32)
  (x3 : FVec Ideal S3x512x512 .f32) (x4 : FVec Ideal S3x512 .f32) (x5 x6 : IVec S160000 32)

theorem v10_zero (i : S10000x512.Idx) : val_main_v10 (F := Ideal) i = 0 := by
  rw [val_main_v10_apply, val_main_cst_apply]
  exact Ideal.ofBits_zero_f32

theorem v11_read (e : Fin 160000) : val_main_v11 (F := Ideal) x6 (ix2 e 0) = x6 (ix1 e) := by
  rw [val_main_v11_apply]
  exact congrArg x6 (funext fun a => by match a with | ⟨0, _⟩ => rfl)

theorem v5_read (e : Fin 160000) :
    val_main_v5 (F := Ideal) x5 (ix2 e 0) = Cert.Gcn.wrapIdx 10000#32 (x5 (ix1 e)) := by
  rw [val_main_v5_apply, val_main_v4_apply, val_main_v1_apply, val_main_v3_apply, val_main_v0_apply, val_main_c_apply,
    val_main_v2_apply, val_main_c_0_apply]
  have hi : idx_main_v5 (ix2 e (0 : Fin 1)) = ix1 e := funext fun a => by match a with | ⟨0, _⟩ => rfl
  rw [hi]
  exact select_wrap _

theorem v8_read (e : Fin 160000) (j : Fin 512) : val_main_v8 (F := Ideal) x2 (ix2 e j) = x2 (ix1 e) := by
  rw [val_main_v8_apply, val_main_v7_apply]
  exact congrArg x2 (funext fun a => by match a with | ⟨0, _⟩ => rfl)

theorem v13_read (r : Fin 10000) (j : Fin 512) : val_main_v13 (F := Ideal) x1 (ix2 r j) = x1 (ix2 r 0) := by
  rw [val_main_v13_apply]
  exact congrArg x1 (funext fun a => by match a with | ⟨0, _⟩ => rfl | ⟨1, _⟩ => rfl)

theorem hop1 (r : Fin 10000) (j : Fin 512) :
    val_main_v14 (F := Ideal) x0 x1 x2 x5 x6 (ix2 r j)
      = Cert.Gcn.hopRef (fun e => x5 (ix1 e)) (fun e => x6 (ix1 e)) (fun e => x2 (ix1 e)) (fun r => x1 (ix2 r 0))
          (fun r j => x0 (ix2 r j)) r j :=
  hop_apply x0 (val_main_v10 (F := Ideal)) (val_main_v13 (F := Ideal) x1) (val_main_v11 (F := Ideal) x6)
    (val_main_v5 (F := Ideal) x5) (val_main_v8 (F := Ideal) x2) _ _ _ _
    v10_zero (v11_read x6) (v5_read x5) (v8_read x2) (v13_read x1) r j

theorem v25_zero (i : S10000x512.Idx) : val_main_v25 (F := Ideal) i = 0 := by
  rw [val_main_v25_apply, val_main_cst_3_apply]
  exact Ideal.ofBits_zero_f32

theorem v26_read (e : Fin 160000) : val_main_v26 (F := Ideal) x6 (ix2 e 0) = x6 (ix1 e) := by
  rw [val_main_v26_apply]
  exact congrArg x6 (funext fun a => by match a with | ⟨0, _⟩ => rfl)

theorem v20_read (e : Fin 160000) :
    val_main_v20 (F := Ideal) x5 (ix2 e 0) = Cert.Gcn.wrapIdx 10000#32 (x5 (ix1 e)) := by
  rw [val_main_v20_apply, val_main_v19_apply, val_main_v16_apply, val_main_v18_apply, val_main_v15_apply,
    val_main_c_1_apply, val_main_v17_apply, val_main_c_2_apply]
  have hi : idx_main_v20 (ix2 e (0 : Fin 1)) = ix1 e := funext fun a => by match a with | ⟨0, _⟩ => rfl
  rw [hi]
  exact select_wrap _

theorem v23_read (e : Fin 160000) (j : Fin 512) : val_main_v23 (F := Ideal) x2 (ix2 e j) = x2 (ix1 e) := by
  rw [val_main_v23_apply, val_main_v22_apply]
  exact congrArg x2 (funext fun a => by match a with | ⟨0, _⟩ => rfl)

theorem v28_read (r : Fin 10000) (j : Fin 512) : val_main_v28 (F := Ideal) x1 (ix2 r j) = x1 (ix2 r 0) := by
  rw [val_main_v28_apply]
  exact congrArg x1 (funext fun a => by match a with | ⟨0, _⟩ => rfl | ⟨1, _⟩ => rfl)

theorem hop2 (r : Fin 10000) (j : Fin 512) :
    val_main_v29 (F := Ideal) x0 x1 x2 x5 x6 (ix2 r j)
      = Cert.Gcn.hopRef (fun e => x5 (ix1 e)) (fun e => x6 (ix1 e)) (fun e => x2 (ix1 e)) (fun r => x1 (ix2 r 0))
          (fun r j => val_main_v14 (F := Ideal) x0 x1 x2 x5 x6 (ix2 r j)) r j :=
  hop_apply (val_main_v14 (F := Ideal) x0 x1 x2 x5 x6) (val_main_v25 (F := Ideal)) (val_main_v28 (F := Ideal) x1)
    (val_main_v26 (F := Ideal) x6) (val_main_v20 (F := Ideal) x5) (val_main_v23 (F := Ideal) x2) _ _ _ _
    v25_zero (v26_read x6) (v20_read x5) (v23_read x2) (v28_read x1) r j

theorem v31_read (k j : Fin 512) : val_main_v31 (F := Ideal) x3 (ix2 k j) = x3 (ix3 (0 : Fin 3) k j) := by
  rw [val_main_v31_apply, val_main_v30_apply]
  refine congrArg x3 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

theorem v36_read (r : Fin 10000) (j : Fin 512) : val_main_v36 (F := Ideal) x4 (ix2 r j) = x4 (ix2 (0 : Fin 3) j) := by
  rw [val_main_v36_apply, val_main_v35_apply, val_main_v34_apply, val_main_v33_apply]
  refine congrArg x4 (funext fun a => Fin.ext ?_)
  have hj := j.isLt
  match a with
  | ⟨0, _⟩ => rfl
  | ⟨1, _⟩ => show j.val % 512 = j.val; omega

theorem call0_zero (i : S10000x512.Idx) : val_main_call0_v0 (F := Ideal) i = 0 := by
  rw [val_main_call0_v0_apply, val_main_call0_cst_apply]
  exact Ideal.ofBits_zero_f32

theorem v40_read (k j : Fin 512) : val_main_v40 (F := Ideal) x3 (ix2 k j) = x3 (ix3 (1 : Fin 3) k j) := by
  rw [val_main_v40_apply, val_main_v39_apply]
  refine congrArg x3 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

theorem v45_read (r : Fin 10000) (j : Fin 512) : val_main_v45 (F := Ideal) x4 (ix2 r j) = x4 (ix2 (1 : Fin 3) j) := by
  rw [val_main_v45_apply, val_main_v44_apply, val_main_v43_apply, val_main_v42_apply]
  refine congrArg x4 (funext fun a => Fin.ext ?_)
  have hj := j.isLt
  match a with
  | ⟨0, _⟩ => rfl
  | ⟨1, _⟩ => show j.val % 512 = j.val; omega

theorem call1_zero (i : S10000x512.Idx) : val_main_call1_v0 (F := Ideal) i = 0 := by
  rw [val_main_call1_v0_apply, val_main_call1_cst_apply]
  exact Ideal.ofBits_zero_f32

theorem v49_read (k j : Fin 512) : val_main_v49 (F := Ideal) x3 (ix2 k j) = x3 (ix3 (2 : Fin 3) k j) := by
  rw [val_main_v49_apply, val_main_v48_apply]
  refine congrArg x3 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

theorem v54_read (r : Fin 10000) (j : Fin 512) : val_main_v54 (F := Ideal) x4 (ix2 r j) = x4 (ix2 (2 : Fin 3) j) := by
  rw [val_main_v54_apply, val_main_v53_apply, val_main_v52_apply, val_main_v51_apply]
  refine congrArg x4 (funext fun a => Fin.ext ?_)
  have hj := j.isLt
  match a with
  | ⟨0, _⟩ => rfl
  | ⟨1, _⟩ => show j.val % 512 = j.val; omega

theorem call2_zero (i : S10000x512.Idx) : val_main_call2_v0 (F := Ideal) i = 0 := by
  rw [val_main_call2_v0_apply, val_main_call2_cst_apply]
  exact Ideal.ofBits_zero_f32

theorem layer0 (r : Fin 10000) (j : Fin 512) :
    val_main_v38 (F := Ideal) x0 x3 x4 (ix2 r j)
      = Cert.Gcn.layer (fun h k j => x3 (ix3 h k j)) (fun h j => x4 (ix2 h j)) 0 (fun r k => x0 (ix2 r k)) r j :=
  layer_apply x0 (val_main_v36 (F := Ideal) x4) (val_main_call0_v0 (F := Ideal)) (val_main_v31 (F := Ideal) x3) _ _ 0
    (v31_read x3) (v36_read x4) call0_zero r j

theorem layer1 (r : Fin 10000) (j : Fin 512) :
    val_main_v47 (F := Ideal) x0 x1 x2 x3 x4 x5 x6 (ix2 r j)
      = Cert.Gcn.layer (fun h k j => x3 (ix3 h k j)) (fun h j => x4 (ix2 h j)) 1
          (fun r k => val_main_v14 (F := Ideal) x0 x1 x2 x5 x6 (ix2 r k)) r j :=
  layer_apply (val_main_v14 (F := Ideal) x0 x1 x2 x5 x6) (val_main_v45 (F := Ideal) x4) (val_main_call1_v0 (F := Ideal))
    (val_main_v40 (F := Ideal) x3) _ _ 1 (v40_read x3) (v45_read x4) call1_zero r j

theorem layer2 (r : Fin 10000) (j : Fin 512) :
    val_main_v56 (F := Ideal) x0 x1 x2 x3 x4 x5 x6 (ix2 r j)
      = Cert.Gcn.layer (fun h k j => x3 (ix3 h k j)) (fun h j => x4 (ix2 h j)) 2
          (fun r k => val_main_v29 (F := Ideal) x0 x1 x2 x5 x6 (ix2 r k)) r j :=
  layer_apply (val_main_v29 (F := Ideal) x0 x1 x2 x5 x6) (val_main_v54 (F := Ideal) x4) (val_main_call2_v0 (F := Ideal))
    (val_main_v49 (F := Ideal) x3) _ _ 2 (v49_read x3) (v54_read x4) call2_zero r j

end Operands

section Concat
variable (A B C : FVec Ideal S10000x512 .f32) (r : Fin 10000) (q : Fin 1536)

theorem concat0 (h : q.val / 512 = 0) :
    concatenate S10000x1536 1 [⟨S10000x512, A⟩, ⟨S10000x512, B⟩, ⟨S10000x512, C⟩]
        Gen.concatenates_S10000x512_S10000x512_S10000x512_S10000x1536_d1 (ix2 r q)
      = A (ix2 r (⟨q.val % 512, Nat.mod_lt _ (by decide)⟩ : Fin 512)) := by
  refine concatenate_apply_piece (1 : Fin S10000x1536.rank) _ _ (ix2 r q) 0 (by show 0 < 3; omega) S10000x512 A rfl rfl 0 rfl
    (ix2 r (⟨q.val % 512, Nat.mod_lt _ (by decide)⟩ : Fin 512)) ?_ ?_
  · intro b hb
    match b with
    | ⟨0, _⟩ => rfl
    | ⟨1, _⟩ => exact absurd rfl hb
  · show 0 + q.val % 512 = q.val
    omega

theorem concat1 (h : q.val / 512 = 1) :
    concatenate S10000x1536 1 [⟨S10000x512, A⟩, ⟨S10000x512, B⟩, ⟨S10000x512, C⟩]
        Gen.concatenates_S10000x512_S10000x512_S10000x512_S10000x1536_d1 (ix2 r q)
      = B (ix2 r (⟨q.val % 512, Nat.mod_lt _ (by decide)⟩ : Fin 512)) := by
  refine concatenate_apply_piece (1 : Fin S10000x1536.rank) _ _ (ix2 r q) 1 (by show 1 < 3; omega) S10000x512 B rfl rfl 512 rfl
    (ix2 r (⟨q.val % 512, Nat.mod_lt _ (by decide)⟩ : Fin 512)) ?_ ?_
  · intro b hb
    match b with
    | ⟨0, _⟩ => rfl
    | ⟨1, _⟩ => exact absurd rfl hb
  · show 512 + q.val % 512 = q.val
    omega

theorem concat2 (h : q.val / 512 = 2) :
    concatenate S10000x1536 1 [⟨S10000x512, A⟩, ⟨S10000x512, B⟩, ⟨S10000x512, C⟩]
        Gen.concatenates_S10000x512_S10000x512_S10000x512_S10000x1536_d1 (ix2 r q)
      = C (ix2 r (⟨q.val % 512, Nat.mod_lt _ (by decide)⟩ : Fin 512)) := by
  refine concatenate_apply_piece (1 : Fin S10000x1536.rank) _ _ (ix2 r q) 2 (by show 2 < 3; omega) S10000x512 C rfl rfl 1024 rfl
    (ix2 r (⟨q.val % 512, Nat.mod_lt _ (by decide)⟩ : Fin 512)) ?_ ?_
  · intro b hb
    match b with
    | ⟨0, _⟩ => rfl
    | ⟨1, _⟩ => exact absurd rfl hb
  · show 1024 + q.val % 512 = q.val
    omega

end Concat

theorem val57_value (x0 : FVec Ideal S10000x512 .f32) (x1 : FVec Ideal S10000x1 .f32) (x2 : FVec Ideal S160000 .f32)
    (x3 : FVec Ideal S3x512x512 .f32) (x4 : FVec Ideal S3x512 .f32) (x5 x6 : IVec S160000 32)
    (r : Fin 10000) (q : Fin 1536) :
    val_main_v57 (F := Ideal) x0 x1 x2 x3 x4 x5 x6 (ix2 r q)
      = Cert.Gcn.gcnRef (fun e => x5 (ix1 e)) (fun e => x6 (ix1 e)) (fun e => x2 (ix1 e)) (fun r j => x0 (ix2 r j))
          (fun r => x1 (ix2 r 0)) (fun h k j => x3 (ix3 h k j)) (fun h j => x4 (ix2 h j)) r q := by
  have hq := q.isLt
  have h1 : (fun (r : Fin 10000) (k : Fin 512) => val_main_v14 (F := Ideal) x0 x1 x2 x5 x6 (ix2 r k))
      = Cert.Gcn.hopRef (fun e => x5 (ix1 e)) (fun e => x6 (ix1 e)) (fun e => x2 (ix1 e)) (fun r => x1 (ix2 r 0))
          (fun r j => x0 (ix2 r j)) := funext fun r => funext fun k => hop1 x0 x1 x2 x5 x6 r k
  have h2 : (fun (r : Fin 10000) (k : Fin 512) => val_main_v29 (F := Ideal) x0 x1 x2 x5 x6 (ix2 r k))
      = Cert.Gcn.hopRef (fun e => x5 (ix1 e)) (fun e => x6 (ix1 e)) (fun e => x2 (ix1 e)) (fun r => x1 (ix2 r 0))
          (Cert.Gcn.hopRef (fun e => x5 (ix1 e)) (fun e => x6 (ix1 e)) (fun e => x2 (ix1 e)) (fun r => x1 (ix2 r 0))
            (fun r j => x0 (ix2 r j))) := by
    rw [← h1]
    exact funext fun r => funext fun k => hop2 x0 x1 x2 x5 x6 r k
  unfold val_main_v57 Cert.Gcn.gcnRef
  rcases (show q.val / 512 = 0 ∨ q.val / 512 = 1 ∨ q.val / 512 = 2 by omega) with h | h | h
  · have hk : (⟨q.val / 512, by omega⟩ : Fin 3) = 0 := Fin.ext h
    rw [concat0 _ _ _ r q h, layer0, hk]
    rfl
  · have hk : (⟨q.val / 512, by omega⟩ : Fin 3) = 1 := Fin.ext h
    rw [concat1 _ _ _ r q h, layer1, hk, h1]
    rfl
  · have hk : (⟨q.val / 512, by omega⟩ : Fin 3) = 2 := Fin.ext h
    rw [concat2 _ _ _ r q h, layer2, hk, h2]
    rfl

theorem ref_value (m : (ℓ : Loc nD τ sig) → Buf (Elt Ideal) ℓ) (c : Dev nD) (r : Fin 10000) (q : Fin 1536) :
    (Cert.ReferenceIdeal.Value.res_main_v57 (F := Ideal) m c : S10000x1536.Idx → EReal) (ix2 r q)
      = Cert.Gcn.gcnRef
          (fun e => (m ((c.tc : Thread nD τ).loc main_arg5) : S160000.Idx → BitVec 32) (ix1 e))
          (fun e => (m ((c.tc : Thread nD τ).loc main_arg6) : S160000.Idx → BitVec 32) (ix1 e))
          (fun e => (m ((c.tc : Thread nD τ).loc main_arg2) : S160000.Idx → EReal) (ix1 e))
          (fun r j => (m ((c.tc : Thread nD τ).loc main_arg0) : S10000x512.Idx → EReal) (ix2 r j))
          (fun r => (m ((c.tc : Thread nD τ).loc main_arg1) : S10000x1.Idx → EReal) (ix2 r 0))
          (fun h k j => (m ((c.tc : Thread nD τ).loc main_arg3) : S3x512x512.Idx → EReal) (ix3 h k j))
          (fun h j => (m ((c.tc : Thread nD τ).loc main_arg4) : S3x512.Idx → EReal) (ix2 h j))
          r q := by
  rw [val_main_v57_eq]
  exact val57_value _ _ _ _ _ _ _ r q

end Cert.RefRead

end
-- ==== Proof.Bridge.lean ====
/-
  The two arrangements agree when features, renormalisation and weights are real, every source word is a node number
  and no destination word is negative: then (∑ w) · x = ∑ (w · x), and each edge meets exactly its own source row.
-/
import proofs.«420774_j10771777979054_1_alg».proof.Proof.Spec

noncomputable section

open scoped BigOperators

namespace Cert.Gcn

/-- An extended real that is a real. -/
def IsFin (x : EReal) : Prop := ∃ y : ℝ, x = (y : EReal)

theorem isFin_zero : IsFin 0 := ⟨0, rfl⟩

theorem IsFin.mul {x y : EReal} (hx : IsFin x) (hy : IsFin y) : IsFin (x * y) := by
  obtain ⟨a, rfl⟩ := hx
  obtain ⟨c, rfl⟩ := hy
  exact ⟨a * c, (EReal.coe_mul a c).symm⟩

theorem coe_sum {ι : Type} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

theorem isFin_sum {ι : Type} (s : Finset ι) (f : ι → EReal) (hf : ∀ i, IsFin (f i)) :
    IsFin (∑ i ∈ s, f i) := by
  choose g hg using hf
  refine ⟨∑ i ∈ s, g i, ?_⟩
  rw [coe_sum]
  exact Finset.sum_congr rfl (fun i _ => hg i)

/-- A real factor distributes over a finite sum of reals; with infinities of both signs it need not. -/
theorem sum_mul_of_isFin {ι : Type} (s : Finset ι) (f : ι → EReal) (c : EReal)
    (hf : ∀ i, IsFin (f i)) (hc : IsFin c) :
    (∑ i ∈ s, f i) * c = ∑ i ∈ s, f i * c := by
  choose g hg using hf
  obtain ⟨d, rfl⟩ := hc
  have h1 : (∑ i ∈ s, f i) = ((∑ i ∈ s, g i : ℝ) : EReal) := by
    rw [coe_sum]
    exact Finset.sum_congr rfl (fun i _ => hg i)
  have h2 : (∑ i ∈ s, f i * (d : EReal)) = ((∑ i ∈ s, g i * d : ℝ) : EReal) := by
    rw [coe_sum]
    exact Finset.sum_congr rfl (fun i _ => by rw [hg i, EReal.coe_mul])
  rw [h1, h2, ← EReal.coe_mul, Finset.sum_mul]

theorem wrapIdx_of_nonneg (n x : BitVec 32) (h : 0 ≤ x.toInt) : wrapIdx n x = x := by
  unfold wrapIdx
  exact if_neg (not_lt.mpr h)

theorem srcRow_of_range (x : BitVec 32) (h0 : 0 ≤ x.toInt) (h1 : x.toInt < 10000) :
    srcRow x = ⟨x.toInt.toNat, by omega⟩ := by
  apply Fin.ext
  show min (wrapIdx 10000#32 x).toInt.toNat 9999 = x.toInt.toNat
  rw [wrapIdx_of_nonneg _ _ h0]
  omega

theorem isFin_padRows {n : Nat} (H : Fin 10000 → Fin n → EReal) (hH : ∀ r j, IsFin (H r j))
    (s : Fin 10240) (j : Fin n) : IsFin (padRows H s j) := by
  unfold padRows
  by_cases hs : s.val < 10000
  · rw [dif_pos hs]; exact hH _ _
  · rw [dif_neg hs]; exact isFin_zero

/-- Row r of the matrix against the padded features: distribute, swap the two sums, keep each edge's own source row. -/
theorem adj_mul_padRows (src dst : Fin 160000 → BitVec 32) (w : Fin 160000 → EReal)
    (hw : ∀ e, IsFin (w e))
    (hsrc : ∀ e, 0 ≤ (src e).toInt ∧ (src e).toInt < 10000) (hdst : ∀ e, 0 ≤ (dst e).toInt)
    (H : Fin 10000 → Fin 512 → EReal) (hH : ∀ r j, IsFin (H r j)) (r : Fin 10240) (j : Fin 512) :
    ∑ s : Fin 10240, adj src dst w r s * padRows H s j
      = ∑ e ∈ Finset.univ.filter (fun e : Fin 160000 => (dst e).toInt = (r.val : Int)),
          H (srcRow (src e)) j * w e := by
  have hadj : ∀ s : Fin 10240, adj src dst w r s * padRows H s j
      = ∑ e : Fin 160000,
          if (dst e).toInt = (r.val : Int) ∧ (src e).toInt = (s.val : Int) then w e * padRows H s j else 0 := by
    intro s
    unfold adj
    rw [sum_mul_of_isFin _ _ _ hw (isFin_padRows H hH s j), Finset.sum_filter]
    refine Finset.sum_congr rfl (fun e _ => ?_)
    rw [wrapIdx_of_nonneg _ _ (hdst e), wrapIdx_of_nonneg _ _ (hsrc e).1]
  rw [Finset.sum_congr rfl (fun s _ => hadj s), Finset.sum_comm, Finset.sum_filter]
  refine Finset.sum_congr rfl (fun e _ => ?_)
  have hs := hsrc e
  by_cases hP : (dst e).toInt = (r.val : Int)
  · rw [if_pos hP]
    have hlt : (src e).toInt.toNat < 10240 := by omega
    rw [Finset.sum_eq_single (⟨(src e).toInt.toNat, hlt⟩ : Fin 10240)]
    · have hQ : (src e).toInt = (((⟨(src e).toInt.toNat, hlt⟩ : Fin 10240).val : Nat) : Int) := by
        show (src e).toInt = (((src e).toInt.toNat : Nat) : Int)
        omega
      rw [if_pos ⟨hP, hQ⟩, srcRow_of_range _ hs.1 hs.2, mul_comm]
      have hlt' : (⟨(src e).toInt.toNat, hlt⟩ : Fin 10240).val < 10000 := by
        show (src e).toInt.toNat < 10000
        omega
      unfold padRows
      rw [dif_pos hlt']
    · intro s _ hne
      rw [if_neg]
      rintro ⟨_, hQ⟩
      apply hne
      apply Fin.ext
      show s.val = (src e).toInt.toNat
      omega
    · intro h
      exact absurd (Finset.mem_univ _) h
  · rw [if_neg hP]
    refine Finset.sum_eq_zero (fun s _ => ?_)
    rw [if_neg]
    exact fun h => hP h.1

/-- A matrix hop of padded features is the padding of an edge hop; on a padding row the renormalisation is zero. -/
theorem hopK_padRows (src dst : Fin 160000 → BitVec 32) (w : Fin 160000 → EReal)
    (hw : ∀ e, IsFin (w e))
    (hsrc : ∀ e, 0 ≤ (src e).toInt ∧ (src e).toInt < 10000) (hdst : ∀ e, 0 ≤ (dst e).toInt)
    (dn : Fin 10000 → EReal) (H : Fin 10000 → Fin 512 → EReal) (hH : ∀ r j, IsFin (H r j)) :
    hopK (adj src dst w) (padCol dn) (padRows H) = padRows (hopRef src dst w dn H) := by
  funext r j
  unfold hopK
  rw [adj_mul_padRows src dst w hw hsrc hdst H hH r j]
  unfold padCol padRows hopRef
  by_cases hr : r.val < 10000
  · rw [dif_pos hr, dif_pos hr]
  · rw [dif_neg hr, dif_neg hr, mul_zero]

theorem isFin_hopRef (src dst : Fin 160000 → BitVec 32) (w : Fin 160000 → EReal)
    (hw : ∀ e, IsFin (w e)) (dn : Fin 10000 → EReal) (hdn : ∀ r, IsFin (dn r))
    (H : Fin 10000 → Fin 512 → EReal) (hH : ∀ r j, IsFin (H r j)) (r : Fin 10000) (j : Fin 512) :
    IsFin (hopRef src dst w dn H r j) := by
  unfold hopRef
  exact (isFin_sum _ _ (fun e => (hH _ _).mul (hw e))).mul (hdn r)

/-- By induction on the number of hops, carrying realness along. -/
theorem iterate_hopK (src dst : Fin 160000 → BitVec 32) (w : Fin 160000 → EReal)
    (hw : ∀ e, IsFin (w e))
    (hsrc : ∀ e, 0 ≤ (src e).toInt ∧ (src e).toInt < 10000) (hdst : ∀ e, 0 ≤ (dst e).toInt)
    (dn : Fin 10000 → EReal) (hdn : ∀ r, IsFin (dn r))
    (feat : Fin 10000 → Fin 512 → EReal) (hfeat : ∀ r j, IsFin (feat r j)) (n : ℕ) :
    (hopK (adj src dst w) (padCol dn))^[n] (padRows feat) = padRows ((hopRef src dst w dn)^[n] feat)
      ∧ ∀ r j, IsFin ((hopRef src dst w dn)^[n] feat r j) := by
  induction n with
  | zero => exact ⟨rfl, hfeat⟩
  | succ n ih =>
    rw [Function.iterate_succ_apply', Function.iterate_succ_apply', ih.1]
    exact ⟨hopK_padRows src dst w hw hsrc hdst dn _ ih.2,
      fun r j => isFin_hopRef src dst w hw dn hdn _ ih.2 r j⟩

theorem gcnK_eq_gcnRef (src dst : Fin 160000 → BitVec 32) (w : Fin 160000 → EReal)
    (feat : Fin 10000 → Fin 512 → EReal) (dn : Fin 10000 → EReal)
    (W : Fin 3 → Fin 512 → Fin 512 → EReal) (b : Fin 3 → Fin 512 → EReal)
    (hfeat : ∀ r j, ∃ x : ℝ, feat r j = (x : EReal)) (hdn : ∀ r, ∃ x : ℝ, dn r = (x : EReal))
    (hw : ∀ e, ∃ x : ℝ, w e = (x : EReal))
    (hsrc : ∀ e, 0 ≤ (src e).toInt ∧ (src e).toInt < 10000) (hdst : ∀ e, 0 ≤ (dst e).toInt)
    (r : Fin 10000) (q : Fin 1536) :
    gcnK src dst w feat dn W b ⟨r.val, by omega⟩ q = gcnRef src dst w feat dn W b r q := by

  have hrow : ∀ k : Fin 512,
      padRows ((hopRef src dst w dn)^[q.val / 512] feat) ⟨r.val, by omega⟩ k
        = (hopRef src dst w dn)^[q.val / 512] feat r k := by
    intro k
    unfold padRows
    rw [dif_pos r.isLt]
  unfold gcnK gcnRef layer stackK stackRef
  rw [(iterate_hopK src dst w hw hsrc hdst dn hdn feat hfeat (q.val / 512)).1]
  simp only [hrow]

end Cert.Gcn

end
-- ==== Proof.PreRead.lean ====
/-
  The precondition, read: features, renormalisation and edge weights are real numbers, every source word is in
  [0, 10000) and no destination word is negative.
-/
import proofs.«420774_j10771777979054_1_alg».proof.Pre_finite_inputs
import proofs.«420774_j10771777979054_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRead

open Idealize.ShloMosaic Cert.Pre_finite_inputs

instance : Subsingleton S_.Idx := ⟨fun a b => funext fun d => d.elim0⟩

/-- |x| < +∞ makes x a real number. -/
theorem real_of_abs_lt (x : EReal)
    (hx : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at hx
  rw [htop] at hx
  induction x using EReal.rec with
  | bot => exact absurd hx (by simp [Ideal.cmp])
  | coe r => exact ⟨r, rfl⟩
  | top => exact absurd hx (by simp [Ideal.cmp])

theorem and_split {s : Shape} (x y : IVec s 1) (j : s.Idx) (hj : andi x y j = 1#1) : x j = 1#1 ∧ y j = 1#1 :=
  IntOp.andi_eq_one.1 hj

theorem of_pre (a0 : FVec Ideal S10000x512 .f32) (a1 : FVec Ideal S10000x1 .f32) (a2 : FVec Ideal S160000 .f32)
    (a3 : FVec Ideal S3x512x512 .f32) (a4 : FVec Ideal S3x512 .f32) (a5 a6 : IVec S160000 32)
    (h : Cert.Pre_finite_inputs.fn (F := Ideal) a0 a1 a2 a3 a4 a5 a6 = fun _ => 1#1) :
    (∀ i, ∃ x : ℝ, a0 i = (x : EReal)) ∧ (∀ i, ∃ x : ℝ, a1 i = (x : EReal)) ∧ (∀ i, ∃ x : ℝ, a2 i = (x : EReal))
      ∧ (∀ i, 0 ≤ (a5 i).toInt ∧ (a5 i).toInt < 10000) ∧ (∀ i, 0 ≤ (a6 i).toInt) := by

  have e := congrFun h ValueIdx.ix0
  unfold Cert.Pre_finite_inputs.fn Cert.Pre_finite_inputs.fn_part1 Cert.Pre_finite_inputs.fn_part2 at e
  dsimp only at e

  obtain ⟨e, h6⟩ := and_split _ _ _ e
  obtain ⟨e, h5lt⟩ := and_split _ _ _ e
  obtain ⟨e, h5ge⟩ := and_split _ _ _ e
  obtain ⟨e, -⟩ := and_split _ _ _ e
  obtain ⟨e, -⟩ := and_split _ _ _ e
  obtain ⟨e, h2⟩ := and_split _ _ _ e
  obtain ⟨h0, h1⟩ := and_split _ _ _ e
  have z0 : (0#32 : BitVec 32).toInt = 0 := by decide
  have z1 : (10000#32 : BitVec 32).toInt = 10000 := by decide
  refine ⟨fun i => ?_, fun i => ?_, fun i => ?_, fun i => ⟨?_, ?_⟩, fun i => ?_⟩
  · exact real_of_abs_lt (a0 i) (Host.reduce_andi_all _ _ _ _ _ h0 i)
  · exact real_of_abs_lt (a1 i) (Host.reduce_andi_all _ _ _ _ _ h1 i)
  · exact real_of_abs_lt (a2 i) (Host.reduce_andi_all _ _ _ _ _ h2 i)
  · have c : IntOp.cmpi .sge (a5 i) (0#32) = 1#1 := Host.reduce_andi_all _ _ _ _ _ h5ge i
    have := IntOp.cmpi_sge.1 c
    rwa [z0] at this
  · have c : IntOp.cmpi .slt (a5 i) (10000#32) = 1#1 := Host.reduce_andi_all _ _ _ _ _ h5lt i
    have := IntOp.cmpi_slt.1 c
    rwa [z1] at this
  · have c : IntOp.cmpi .sge (a6 i) (0#32) = 1#1 := Host.reduce_andi_all _ _ _ _ _ h6 i
    have := IntOp.cmpi_sge.1 c
    rwa [z0] at this

end Cert.PreRead

end
-- ==== Proof.lean ====
/-
  A graph convolution with two propagation hops and three dense layers. The kernel adds the edge weights into a dense
  adjacency matrix and multiplies it twice with the node features; the reference gathers source rows and sums the
  messages edge by edge. For finite inputs and in-range edge endpoints the two arrangements are one function.
-/
import proofs.«420774_j10771777979054_1_alg».proof.Defs
import proofs.«420774_j10771777979054_1_alg».proof.Proof.Gen.Kernel
import proofs.«420774_j10771777979054_1_alg».proof.Proof.Gen.KernelIdeal
import proofs.«420774_j10771777979054_1_alg».proof.Proof.Gen.ReferenceIdeal
import proofs.«420774_j10771777979054_1_alg».proof.Proof.Gen.Pre_finite_inputs
import proofs.«420774_j10771777979054_1_alg».proof.Proof.KArgs
import proofs.«420774_j10771777979054_1_alg».proof.Proof.KValue
import proofs.«420774_j10771777979054_1_alg».proof.Proof.RefRead
import proofs.«420774_j10771777979054_1_alg».proof.Proof.Bridge
import proofs.«420774_j10771777979054_1_alg».proof.Proof.PreRead

noncomputable section

namespace Cert.Proof

open Idealize.ShloMosaic Idealize.ShloMosaic.TcCoe Idealize.ShloMosaic.ValueIdx Idealize.SL.Sem

section
variable {F : FTy → Type} [FloatOps F]

set_option maxHeartbeats 800000 in
/-- The word-level and the exact kernel program have the same bodies -/
theorem defs₀_eq : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl
  | 1, (t, s) => rfl
  | 2, (t, s) => rfl

theorem defs_eq : Cert.Kernel.defs (F := F) = Cert.KernelIdeal.defs (F := F) :=
  congrArg (Pipeline.defs Cert.Kernel.pcfgs) defs₀_eq

set_option maxHeartbeats 800000 in
/-- and the same host program, so one frame at any float instance serves both. -/
theorem main_eq : Cert.Kernel.main (F := F) = Cert.KernelIdeal.main (F := F) := rfl
end

theorem frame_ki : Cert.frame_KernelIdeal := fun m ρ _ =>
  (θ_run Cert.KernelIdeal.defs _ _).mono (fun _ h c => (h c).2) (Cert.KernelIdeal.Fr.run_value (F := Ideal) m ρ)

theorem frame_k : Cert.frame_Kernel := fun m ρ _ => by
  rw [defs_eq, main_eq]
  exact (θ_run Cert.KernelIdeal.defs _ _).mono (fun _ h c => (h c).2) (Cert.KernelIdeal.Fr.run_value (F := Bits) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Fr.W11 (F := Ideal) m ρ c (Proc.devRef .tc Cert.KernelIdeal.main_v28),
    Cert.KernelIdeal.Fr.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hf0, hf1, hf2, hsrc, hdst⟩ := Cert.PreRead.of_pre _ _ _ _ _ _ _ (hpre c)
  funext i
  obtain ⟨r, q, rfl⟩ : ∃ (r : Fin 10000) (q : Fin 1536), i = ix2 r q := ⟨i 0, i 1, eq_ix2 i⟩
  refine (Cert.RefRead.ref_value m' c r q).trans ?_
  rw [(hagree c).1, (hagree c).2.1, (hagree c).2.2.1, (hagree c).2.2.2.1, (hagree c).2.2.2.2.1, (hagree c).2.2.2.2.2.1,
    (hagree c).2.2.2.2.2.2]
  refine Eq.trans ?_ (Cert.KernelIdeal.Fr.kernel_value m ρ c r q).symm
  exact (Cert.Gcn.gcnK_eq_gcnRef _ _ _ _ _ _ _ (fun r j => hf0 (ix2 r j)) (fun r => hf1 (ix2 r 0)) (fun e => hf2 (ix1 e))
    (fun e => hsrc (ix1 e)) (fun e => hdst (ix1 e)) r q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
